-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x256x256 : Shape := ⟨4, ![1, 256, 256, 256]⟩
abbrev S4096x2x16x16x16 : Shape := ⟨5, ![4096, 2, 16, 16, 16]⟩
abbrev S512x3 : Shape := ⟨2, ![512, 3]⟩
abbrev S64x3 : Shape := ⟨2, ![64, 3]⟩
abbrev S8x3 : Shape := ⟨2, ![8, 3]⟩
abbrev S1x3 : Shape := ⟨2, ![1, 3]⟩
abbrev S_ : Shape := ⟨0, ![]⟩

class Facts : Prop where
  bcast_S_S4096x2x16x16x16 : S_.BroadcastsInDim S4096x2x16x16x16 (![] : Fin 0 → Fin S4096x2x16x16x16.rank)
  reducesTo_S4096x2x16x16x16_S_d0_1_2_3_4 : S4096x2x16x16x16.ReducesTo [0, 1, 2, 3, 4] S_
  h_S_ : 0 < S_.numel
  bcast_S_S512x3 : S_.BroadcastsInDim S512x3 (![] : Fin 0 → Fin S512x3.rank)
  reducesTo_S512x3_S_d0_1 : S512x3.ReducesTo [0, 1] S_
  bcast_S_S64x3 : S_.BroadcastsInDim S64x3 (![] : Fin 0 → Fin S64x3.rank)
  reducesTo_S64x3_S_d0_1 : S64x3.ReducesTo [0, 1] S_
  bcast_S_S8x3 : S_.BroadcastsInDim S8x3 (![] : Fin 0 → Fin S8x3.rank)
  reducesTo_S8x3_S_d0_1 : S8x3.ReducesTo [0, 1] S_
  bcast_S_S1x3 : S_.BroadcastsInDim S1x3 (![] : Fin 0 → Fin S1x3.rank)
  reducesTo_S1x3_S_d0_1 : S1x3.ReducesTo [0, 1] S_
  bcast_S_S1x256x256x256 : S_.BroadcastsInDim S1x256x256x256 (![] : Fin 0 → Fin S1x256x256x256.rank)
  reducesTo_S1x256x256x256_S_d0_1_2_3 : S1x256x256x256.ReducesTo [0, 1, 2, 3] S_

variable [Facts]

def fn_part1 {F : FTy → Type} [FloatOps F] (main_arg0 : IVec S1x256x256x256 32) (main_arg5 : FVec F S1x3 .f32) (main_v13 : IVec S_ 1) (main_v16 : IVec S8x3 1) : IVec S_ 1 :=
  let main_c_5 : IVec S_ 1 := constantI S_ 1 1#1
  let main_v17 : IVec S_ 1 := (fun x v => Host.reduce IntOp.andi x v reducesTo_S8x3_S_d0_1 h_S_) main_v16 main_c_5
  let main_v18 : IVec S_ 1 := andi main_v13 main_v17
  let main_v19 : FVec F S1x3 .f32 := Host.absf main_arg5
  let main_cst_6 : FVec F S_ .f32 := constant S_ .f32 0x7F800000#32
  let main_v20 : FVec F S1x3 .f32 := broadcastInDim S1x3 ![] bcast_S_S1x3 main_cst_6
  let main_v21 : IVec S1x3 1 := cmpf .olt main_v19 main_v20
  let main_c_7 : IVec S_ 1 := constantI S_ 1 1#1
  let main_v22 : IVec S_ 1 := (fun x v => Host.reduce IntOp.andi x v reducesTo_S1x3_S_d0_1 h_S_) main_v21 main_c_7
  let main_v23 : IVec S_ 1 := andi main_v18 main_v22
  let main_c_8 : IVec S_ 32 := constantI S_ 32 1#32
  let main_v24 : IVec S1x256x256x256 32 := broadcastInDim S1x256x256x256 ![] bcast_S_S1x256x256x256 main_c_8
  let main_v25 : IVec S1x256x256x256 1 := cmpi .eq main_arg0 main_v24
  let main_c_9 : IVec S_ 32 := constantI S_ 32 4294967295#32
  let main_v26 : IVec S1x256x256x256 32 := broadcastInDim S1x256x256x256 ![] bcast_S_S1x256x256x256 main_c_9
  let main_v27 : IVec S1x256x256x256 1 := cmpi .eq main_arg0 main_v26
  let main_v28 : IVec S1x256x256x256 1 := ori main_v25 main_v27
  let main_c_10 : IVec S_ 1 := constantI S_ 1 1#1
  let main_v29 : IVec S_ 1 := (fun x v => Host.reduce IntOp.andi x v reducesTo_S1x256x256x256_S_d0_1_2_3 h_S_) main_v28 main_c_10
  let main_v30 : IVec S_ 1 := andi main_v23 main_v29
  main_v30

def fn {F : FTy → Type} [FloatOps F] (main_arg0 : IVec S1x256x256x256 32) (main_arg1 : FVec F S4096x2x16x16x16 .f32) (main_arg2 : FVec F S512x3 .f32) (main_arg3 : FVec F S64x3 .f32) (main_arg4 : FVec F S8x3 .f32) (main_arg5 : FVec F S1x3 .f32) : IVec S_ 1 :=
  let main_v0 : FVec F S4096x2x16x16x16 .f32 := Host.absf main_arg1
  let main_cst : FVec F S_ .f32 := constant S_ .f32 0x7F800000#32
  let main_v1 : FVec F S4096x2x16x16x16 .f32 := broadcastInDim S4096x2x16x16x16 ![] bcast_S_S4096x2x16x16x16 main_cst
  let main_v2 : IVec S4096x2x16x16x16 1 := cmpf .olt main_v0 main_v1
  let main_c : IVec S_ 1 := constantI S_ 1 1#1
  let main_v3 : IVec S_ 1 := (fun x v => Host.reduce IntOp.andi x v reducesTo_S4096x2x16x16x16_S_d0_1_2_3_4 h_S_) main_v2 main_c
  let main_v4 : FVec F S512x3 .f32 := Host.absf main_arg2
  let main_cst_0 : FVec F S_ .f32 := constant S_ .f32 0x7F800000#32
  let main_v5 : FVec F S512x3 .f32 := broadcastInDim S512x3 ![] bcast_S_S512x3 main_cst_0
  let main_v6 : IVec S512x3 1 := cmpf .olt main_v4 main_v5
  let main_c_1 : IVec S_ 1 := constantI S_ 1 1#1
  let main_v7 : IVec S_ 1 := (fun x v => Host.reduce IntOp.andi x v reducesTo_S512x3_S_d0_1 h_S_) main_v6 main_c_1
  let main_v8 : IVec S_ 1 := andi main_v3 main_v7
  let main_v9 : FVec F S64x3 .f32 := Host.absf main_arg3
  let main_cst_2 : FVec F S_ .f32 := constant S_ .f32 0x7F800000#32
  let main_v10 : FVec F S64x3 .f32 := broadcastInDim S64x3 ![] bcast_S_S64x3 main_cst_2
  let main_v11 : IVec S64x3 1 := cmpf .olt main_v9 main_v10
  let main_c_3 : IVec S_ 1 := constantI S_ 1 1#1
  let main_v12 : IVec S_ 1 := (fun x v => Host.reduce IntOp.andi x v reducesTo_S64x3_S_d0_1 h_S_) main_v11 main_c_3
  let main_v13 : IVec S_ 1 := andi main_v8 main_v12
  let main_v14 : FVec F S8x3 .f32 := Host.absf main_arg4
  let main_cst_4 : FVec F S_ .f32 := constant S_ .f32 0x7F800000#32
  let main_v15 : FVec F S8x3 .f32 := broadcastInDim S8x3 ![] bcast_S_S8x3 main_cst_4
  let main_v16 : IVec S8x3 1 := cmpf .olt main_v14 main_v15
  fn_part1 (F := F) main_arg0 main_arg5 main_v13 main_v16
-- ==== Kernel.lean ====
abbrev S1x256x256x256 : Shape := ⟨4, ![1, 256, 256, 256]⟩
abbrev S4096x2x16x16x16 : Shape := ⟨5, ![4096, 2, 16, 16, 16]⟩
abbrev S512x3 : Shape := ⟨2, ![512, 3]⟩
abbrev S64x3 : Shape := ⟨2, ![64, 3]⟩
abbrev S8x3 : Shape := ⟨2, ![8, 3]⟩
abbrev S1x3 : Shape := ⟨2, ![1, 3]⟩
abbrev S256x256x256 : Shape := ⟨3, ![256, 256, 256]⟩
abbrev S_ : Shape := ⟨0, ![]⟩
abbrev S16x16x16x16x16x16 : Shape := ⟨6, ![16, 16, 16, 16, 16, 16]⟩
abbrev S4096x4096 : Shape := ⟨2, ![4096, 4096]⟩
abbrev S4096x2x4096 : Shape := ⟨3, ![4096, 2, 4096]⟩
abbrev S1x1 : Shape := ⟨2, ![1, 1]⟩
abbrev S128x2x4096 : Shape := ⟨3, ![128, 2, 4096]⟩
abbrev S128x4096 : Shape := ⟨2, ![128, 4096]⟩
abbrev S128x1x4096 : Shape := ⟨3, ![128, 1, 4096]⟩
abbrev S128 : Shape := ⟨1, ![128]⟩
abbrev S128x1 : Shape := ⟨2, ![128, 1]⟩
abbrev S1 : Shape := ⟨1, ![1]⟩
abbrev S4096 : Shape := ⟨1, ![4096]⟩
abbrev S16x16x16 : Shape := ⟨3, ![16, 16, 16]⟩
abbrev S8x2x8x2x8x2 : Shape := ⟨6, ![8, 2, 8, 2, 8, 2]⟩
abbrev S8x8x8 : Shape := ⟨3, ![8, 8, 8]⟩
abbrev S512 : Shape := ⟨1, ![512]⟩
abbrev S512x1 : Shape := ⟨2, ![512, 1]⟩
abbrev S512x1x1 : Shape := ⟨3, ![512, 1, 1]⟩
abbrev S1x1x1 : Shape := ⟨3, ![1, 1, 1]⟩
abbrev S4x2x4x2x4x2 : Shape := ⟨6, ![4, 2, 4, 2, 4, 2]⟩
abbrev S4x4x4 : Shape := ⟨3, ![4, 4, 4]⟩
abbrev S64 : Shape := ⟨1, ![64]⟩
abbrev S64x1 : Shape := ⟨2, ![64, 1]⟩
abbrev S64x1x1 : Shape := ⟨3, ![64, 1, 1]⟩
abbrev S2x2x2x2x2x2 : Shape := ⟨6, ![2, 2, 2, 2, 2, 2]⟩
abbrev S2x2x2 : Shape := ⟨3, ![2, 2, 2]⟩
abbrev S8 : Shape := ⟨1, ![8]⟩
abbrev S8x1 : Shape := ⟨2, ![8, 1]⟩
abbrev S8x1x1 : Shape := ⟨3, ![8, 1, 1]⟩
abbrev S1x2x1x2x1x2 : Shape := ⟨6, ![1, 2, 1, 2, 1, 2]⟩

abbrev nBuf : Space → Nat
  | .hbm => 275
  | .vmem => 5
  | .smem => 0
  | _ => 0

abbrev hbmTy0_0 (i : Nat) : BufTy := match i % 128 with
  | 0 => ⟨S1x256x256x256, .i32⟩
  | 1 => ⟨S4096x2x16x16x16, .f32⟩
  | 2 => ⟨S512x3, .f32⟩
  | 3 => ⟨S64x3, .f32⟩
  | 4 => ⟨S8x3, .f32⟩
  | 5 => ⟨S1x3, .f32⟩
  | 6 => ⟨S256x256x256, .i32⟩
  | 7 => ⟨S_, .i32⟩
  | 8 => ⟨S256x256x256, .i32⟩
  | 9 => ⟨S256x256x256, .i32⟩
  | 10 => ⟨S_, .i32⟩
  | 11 => ⟨S_, .i32⟩
  | 12 => ⟨S256x256x256, .i32⟩
  | 13 => ⟨S256x256x256, .i32⟩
  | 14 => ⟨S256x256x256, .i32⟩
  | 15 => ⟨S_, .i32⟩
  | 16 => ⟨S256x256x256, .i32⟩
  | 17 => ⟨S256x256x256, .i1⟩
  | 18 => ⟨S256x256x256, .i32⟩
  | 19 => ⟨S256x256x256, .i32⟩
  | 20 => ⟨S_, .i32⟩
  | 21 => ⟨S256x256x256, .i32⟩
  | 22 => ⟨S256x256x256, .i1⟩
  | 23 => ⟨S256x256x256, .i1⟩
  | 24 => ⟨S_, .i32⟩
  | 25 => ⟨S256x256x256, .i32⟩
  | 26 => ⟨S256x256x256, .i32⟩
  | 27 => ⟨S256x256x256, .i32⟩
  | 28 => ⟨S16x16x16x16x16x16, .i32⟩
  | 29 => ⟨S16x16x16x16x16x16, .i32⟩
  | 30 => ⟨S4096x4096, .i32⟩
  | 31 => ⟨S4096x2x4096, .f32⟩
  | 32 => ⟨S1x1, .f32⟩
  | 33 => ⟨S_, .f32⟩
  | 34 => ⟨S_, .i32⟩
  | 35 => ⟨S4096, .i32⟩
  | 36 => ⟨S16x16x16, .i32⟩
  | 37 => ⟨S_, .i32⟩
  | 38 => ⟨S4096, .i32⟩
  | 39 => ⟨S16x16x16, .i32⟩
  | 40 => ⟨S8x2x8x2x8x2, .i32⟩
  | 41 => ⟨S_, .i32⟩
  | 42 => ⟨S8x8x8, .i32⟩
  | 43 => ⟨S8x2x8x2x8x2, .i32⟩
  | 44 => ⟨S_, .i32⟩
  | 45 => ⟨S8x8x8, .i32⟩
  | 46 => ⟨S512, .i32⟩
  | 47 => ⟨S512, .i32⟩
  | 48 => ⟨S512, .i1⟩
  | 49 => ⟨S_, .i32⟩
  | 50 => ⟨S_, .i32⟩
  | 51 => ⟨S512, .i32⟩
  | 52 => ⟨S512, .i32⟩
  | 53 => ⟨S_, .f32⟩
  | 54 => ⟨S512, .f32⟩
  | 55 => ⟨S_, .f32⟩
  | 56 => ⟨S512, .f32⟩
  | 57 => ⟨S512, .f32⟩
  | 58 => ⟨S512x1, .f32⟩
  | 59 => ⟨S512x3, .f32⟩
  | 60 => ⟨S512x3, .f32⟩
  | 61 => ⟨S512x3, .f32⟩
  | 62 => ⟨S_, .f32⟩
  | 63 => ⟨S512, .f32⟩
  | 64 => ⟨S512x1, .f32⟩
  | 65 => ⟨S512x1, .f32⟩
  | 66 => ⟨S512x3, .f32⟩
  | 67 => ⟨S512x3, .f32⟩
  | 68 => ⟨S512x1, .i32⟩
  | 69 => ⟨S_, .i32⟩
  | 70 => ⟨S512x1, .i32⟩
  | 71 => ⟨S512x1, .i1⟩
  | 72 => ⟨S_, .i32⟩
  | 73 => ⟨S512x1, .i32⟩
  | 74 => ⟨S512x1, .i32⟩
  | 75 => ⟨S512x1, .i32⟩
  | 76 => ⟨S512x1x1, .i32⟩
  | 77 => ⟨S1, .i32⟩
  | 78 => ⟨S_, .i32⟩
  | 79 => ⟨S512x1x1, .i32⟩
  | 80 => ⟨S512x1x1, .i1⟩
  | 81 => ⟨S1x1x1, .i32⟩
  | 82 => ⟨S512x1x1, .i32⟩
  | 83 => ⟨S512x1x1, .i1⟩
  | 84 => ⟨S512x1x1, .i1⟩
  | 85 => ⟨S_, .i1⟩
  | 86 => ⟨S512x1, .i1⟩
  | 87 => ⟨S512x1, .f32⟩
  | 88 => ⟨S_, .f32⟩
  | 89 => ⟨S512x1, .f32⟩
  | 90 => ⟨S512x1, .f32⟩
  | 91 => ⟨S512, .f32⟩
  | 92 => ⟨S512, .f32⟩
  | 93 => ⟨S_, .f32⟩
  | 94 => ⟨S512, .f32⟩
  | 95 => ⟨S512, .f32⟩
  | 96 => ⟨S_, .f32⟩
  | 97 => ⟨S_, .f32⟩
  | 98 => ⟨S_, .f32⟩
  | 99 => ⟨S4x2x4x2x4x2, .i32⟩
  | 100 => ⟨S_, .i32⟩
  | 101 => ⟨S4x4x4, .i32⟩
  | 102 => ⟨S4x2x4x2x4x2, .i32⟩
  | 103 => ⟨S_, .i32⟩
  | 104 => ⟨S4x4x4, .i32⟩
  | 105 => ⟨S64, .i32⟩
  | 106 => ⟨S64, .i32⟩
  | 107 => ⟨S64, .i1⟩
  | 108 => ⟨S_, .i32⟩
  | 109 => ⟨S_, .i32⟩
  | 110 => ⟨S64, .i32⟩
  | 111 => ⟨S64, .i32⟩
  | 112 => ⟨S_, .f32⟩
  | 113 => ⟨S64, .f32⟩
  | 114 => ⟨S_, .f32⟩
  | 115 => ⟨S64, .f32⟩
  | 116 => ⟨S64, .f32⟩
  | 117 => ⟨S64x1, .f32⟩
  | 118 => ⟨S64x3, .f32⟩
  | 119 => ⟨S64x3, .f32⟩
  | 120 => ⟨S64x3, .f32⟩
  | 121 => ⟨S_, .f32⟩
  | 122 => ⟨S64, .f32⟩
  | 123 => ⟨S64x1, .f32⟩
  | 124 => ⟨S64x1, .f32⟩
  | 125 => ⟨S64x3, .f32⟩
  | 126 => ⟨S64x3, .f32⟩
  | 127 => ⟨S64x1, .i32⟩
  | _ => ⟨S1x256x256x256, .i32⟩

abbrev hbmTy0_1 (i : Nat) : BufTy := match i % 128 with
  | 0 => ⟨S_, .i32⟩
  | 1 => ⟨S64x1, .i32⟩
  | 2 => ⟨S64x1, .i1⟩
  | 3 => ⟨S_, .i32⟩
  | 4 => ⟨S64x1, .i32⟩
  | 5 => ⟨S64x1, .i32⟩
  | 6 => ⟨S64x1, .i32⟩
  | 7 => ⟨S64x1x1, .i32⟩
  | 8 => ⟨S1, .i32⟩
  | 9 => ⟨S_, .i32⟩
  | 10 => ⟨S64x1x1, .i32⟩
  | 11 => ⟨S64x1x1, .i1⟩
  | 12 => ⟨S1x1x1, .i32⟩
  | 13 => ⟨S64x1x1, .i32⟩
  | 14 => ⟨S64x1x1, .i1⟩
  | 15 => ⟨S64x1x1, .i1⟩
  | 16 => ⟨S_, .i1⟩
  | 17 => ⟨S64x1, .i1⟩
  | 18 => ⟨S64x1, .f32⟩
  | 19 => ⟨S_, .f32⟩
  | 20 => ⟨S64x1, .f32⟩
  | 21 => ⟨S64x1, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S_, .f32⟩
  | 29 => ⟨S_, .f32⟩
  | 30 => ⟨S2x2x2x2x2x2, .i32⟩
  | 31 => ⟨S_, .i32⟩
  | 32 => ⟨S2x2x2, .i32⟩
  | 33 => ⟨S2x2x2x2x2x2, .i32⟩
  | 34 => ⟨S_, .i32⟩
  | 35 => ⟨S2x2x2, .i32⟩
  | 36 => ⟨S8, .i32⟩
  | 37 => ⟨S8, .i32⟩
  | 38 => ⟨S8, .i1⟩
  | 39 => ⟨S_, .i32⟩
  | 40 => ⟨S_, .i32⟩
  | 41 => ⟨S8, .i32⟩
  | 42 => ⟨S8, .i32⟩
  | 43 => ⟨S_, .f32⟩
  | 44 => ⟨S8, .f32⟩
  | 45 => ⟨S_, .f32⟩
  | 46 => ⟨S8, .f32⟩
  | 47 => ⟨S8, .f32⟩
  | 48 => ⟨S8x1, .f32⟩
  | 49 => ⟨S8x3, .f32⟩
  | 50 => ⟨S8x3, .f32⟩
  | 51 => ⟨S8x3, .f32⟩
  | 52 => ⟨S_, .f32⟩
  | 53 => ⟨S8, .f32⟩
  | 54 => ⟨S8x1, .f32⟩
  | 55 => ⟨S8x1, .f32⟩
  | 56 => ⟨S8x3, .f32⟩
  | 57 => ⟨S8x3, .f32⟩
  | 58 => ⟨S8x1, .i32⟩
  | 59 => ⟨S_, .i32⟩
  | 60 => ⟨S8x1, .i32⟩
  | 61 => ⟨S8x1, .i1⟩
  | 62 => ⟨S_, .i32⟩
  | 63 => ⟨S8x1, .i32⟩
  | 64 => ⟨S8x1, .i32⟩
  | 65 => ⟨S8x1, .i32⟩
  | 66 => ⟨S8x1x1, .i32⟩
  | 67 => ⟨S1, .i32⟩
  | 68 => ⟨S_, .i32⟩
  | 69 => ⟨S8x1x1, .i32⟩
  | 70 => ⟨S8x1x1, .i1⟩
  | 71 => ⟨S1x1x1, .i32⟩
  | 72 => ⟨S8x1x1, .i32⟩
  | 73 => ⟨S8x1x1, .i1⟩
  | 74 => ⟨S8x1x1, .i1⟩
  | 75 => ⟨S_, .i1⟩
  | 76 => ⟨S8x1, .i1⟩
  | 77 => ⟨S8x1, .f32⟩
  | 78 => ⟨S_, .f32⟩
  | 79 => ⟨S8x1, .f32⟩
  | 80 => ⟨S8x1, .f32⟩
  | 81 => ⟨S8, .f32⟩
  | 82 => ⟨S8, .f32⟩
  | 83 => ⟨S_, .f32⟩
  | 84 => ⟨S8, .f32⟩
  | 85 => ⟨S8, .f32⟩
  | 86 => ⟨S_, .f32⟩
  | 87 => ⟨S_, .f32⟩
  | 88 => ⟨S_, .f32⟩
  | 89 => ⟨S1x2x1x2x1x2, .i32⟩
  | 90 => ⟨S_, .i32⟩
  | 91 => ⟨S1x1x1, .i32⟩
  | 92 => ⟨S1x2x1x2x1x2, .i32⟩
  | 93 => ⟨S_, .i32⟩
  | 94 => ⟨S1x1x1, .i32⟩
  | 95 => ⟨S1, .i32⟩
  | 96 => ⟨S1, .i32⟩
  | 97 => ⟨S1, .i1⟩
  | 98 => ⟨S_, .i32⟩
  | 99 => ⟨S_, .i32⟩
  | 100 => ⟨S1, .i32⟩
  | 101 => ⟨S1, .i32⟩
  | 102 => ⟨S_, .f32⟩
  | 103 => ⟨S1, .f32⟩
  | 104 => ⟨S_, .f32⟩
  | 105 => ⟨S1, .f32⟩
  | 106 => ⟨S1, .f32⟩
  | 107 => ⟨S1x1, .f32⟩
  | 108 => ⟨S1x3, .f32⟩
  | 109 => ⟨S1x3, .f32⟩
  | 110 => ⟨S1x3, .f32⟩
  | 111 => ⟨S_, .f32⟩
  | 112 => ⟨S1, .f32⟩
  | 113 => ⟨S1x1, .f32⟩
  | 114 => ⟨S1x1, .f32⟩
  | 115 => ⟨S1x3, .f32⟩
  | 116 => ⟨S1x3, .f32⟩
  | 117 => ⟨S1x1, .i32⟩
  | 118 => ⟨S_, .i32⟩
  | 119 => ⟨S1x1, .i32⟩
  | 120 => ⟨S1x1, .i1⟩
  | 121 => ⟨S_, .i32⟩
  | 122 => ⟨S1x1, .i32⟩
  | 123 => ⟨S1x1, .i32⟩
  | 124 => ⟨S1x1, .i32⟩
  | 125 => ⟨S1, .i32⟩
  | 126 => ⟨S_, .i32⟩
  | 127 => ⟨S1x1, .i32⟩
  | _ => ⟨S1x256x256x256, .i32⟩

abbrev hbmTy0_2 (i : Nat) : BufTy := match i % 128 with
  | 0 => ⟨S1x1, .i1⟩
  | 1 => ⟨S1x1, .i32⟩
  | 2 => ⟨S1x1, .i1⟩
  | 3 => ⟨S1x1, .i1⟩
  | 4 => ⟨S_, .i1⟩
  | 5 => ⟨S1, .i1⟩
  | 6 => ⟨S1x1, .f32⟩
  | 7 => ⟨S1x1, .i1⟩
  | 8 => ⟨S_, .f32⟩
  | 9 => ⟨S1x1, .f32⟩
  | 10 => ⟨S1x1, .f32⟩
  | 11 => ⟨S1, .f32⟩
  | 12 => ⟨S1, .f32⟩
  | 13 => ⟨S_, .f32⟩
  | 14 => ⟨S1, .f32⟩
  | 15 => ⟨S1, .f32⟩
  | 16 => ⟨S_, .f32⟩
  | 17 => ⟨S_, .f32⟩
  | 18 => ⟨S_, .f32⟩
  | _ => ⟨S1x256x256x256, .i32⟩

abbrev hbmTy (i : Nat) : BufTy := match i / 128 with
  | 0 => hbmTy0_0 i
  | 1 => hbmTy0_1 i
  | 2 => hbmTy0_2 i
  | _ => ⟨S1x256x256x256, .i32⟩

abbrev bufTy : (tb : Table) → Fin (tcTables nBuf tb) → BufTy
  | .hbm, ⟨i, _⟩ => hbmTy i
  | .local _ .vmem, ⟨0, _⟩ => ⟨S128x2x4096, .f32⟩
  | .local _ .vmem, ⟨1, _⟩ => ⟨S128x2x4096, .f32⟩
  | .local _ .vmem, ⟨2, _⟩ => ⟨S128x4096, .i32⟩
  | .local _ .vmem, ⟨3, _⟩ => ⟨S128x4096, .i32⟩
  | .local _ .vmem, ⟨4, _⟩ => ⟨S1x1, .f32⟩
  | _, _ => ⟨S1x256x256x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c_1 : Ref sig .tc := ⟨.hbm, 34, rfl⟩
abbrev main_v10 : Ref sig .tc := ⟨.hbm, 35, rfl⟩
abbrev main_v11 : Ref sig .tc := ⟨.hbm, 36, rfl⟩
abbrev main_c_2 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_3 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_call1_v0 : Ref sig .tc := ⟨.hbm, 50, rfl⟩
abbrev main_call1_v1 : Ref sig .tc := ⟨.hbm, 51, rfl⟩
abbrev main_v21 : Ref sig .tc := ⟨.hbm, 52, rfl⟩
abbrev main_call2_cst : Ref sig .tc := ⟨.hbm, 53, rfl⟩
abbrev main_call2_v0 : Ref sig .tc := ⟨.hbm, 54, rfl⟩
abbrev main_call2_cst_0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_cst_1 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_v22 : Ref sig .tc := ⟨.hbm, 67, rfl⟩
abbrev main_v23 : Ref sig .tc := ⟨.hbm, 68, rfl⟩
abbrev main_call3_c : Ref sig .tc := ⟨.hbm, 69, rfl⟩
abbrev main_call3_v0 : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_c_1 : Ref sig .tc := ⟨.hbm, 77, rfl⟩
abbrev main_call3_c_2 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_3 : Ref sig .tc := ⟨.hbm, 85, rfl⟩
abbrev main_call3_v12 : Ref sig .tc := ⟨.hbm, 86, rfl⟩
abbrev main_call3_v13 : Ref sig .tc := ⟨.hbm, 87, rfl⟩
abbrev main_call3_cst : Ref sig .tc := ⟨.hbm, 88, rfl⟩
abbrev main_call3_v14 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_cst : Ref sig .tc := ⟨.hbm, 93, rfl⟩
abbrev main_v27 : Ref sig .tc := ⟨.hbm, 94, rfl⟩
abbrev main_v28 : Ref sig .tc := ⟨.hbm, 95, rfl⟩
abbrev main_cst_6 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_7 : Ref sig .tc := ⟨.hbm, 100, rfl⟩
abbrev main_v32 : Ref sig .tc := ⟨.hbm, 101, rfl⟩
abbrev main_v33 : Ref sig .tc := ⟨.hbm, 102, rfl⟩
abbrev main_c_8 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_c_9 : Ref sig .tc := ⟨.hbm, 108, rfl⟩
abbrev main_call4_v0 : Ref sig .tc := ⟨.hbm, 109, rfl⟩
abbrev main_call4_v1 : Ref sig .tc := ⟨.hbm, 110, rfl⟩
abbrev main_v38 : Ref sig .tc := ⟨.hbm, 111, rfl⟩
abbrev main_call5_cst : Ref sig .tc := ⟨.hbm, 112, rfl⟩
abbrev main_call5_v0 : Ref sig .tc := ⟨.hbm, 113, rfl⟩
abbrev main_call5_cst_0 : Ref sig .tc := ⟨.hbm, 114, rfl⟩
abbrev main_call5_v1 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_v5 : Ref sig .tc := ⟨.hbm, 119, rfl⟩
abbrev main_call5_v6 : Ref sig .tc := ⟨.hbm, 120, rfl⟩
abbrev main_call5_cst_1 : Ref sig .tc := ⟨.hbm, 121, rfl⟩
abbrev main_call5_v7 : Ref sig .tc := ⟨.hbm, 122, rfl⟩
abbrev main_call5_v8 : Ref sig .tc := ⟨.hbm, 123, rfl⟩
abbrev main_call5_v9 : Ref sig .tc := ⟨.hbm, 124, rfl⟩
abbrev main_call5_v10 : Ref sig .tc := ⟨.hbm, 125, rfl⟩
abbrev main_v39 : Ref sig .tc := ⟨.hbm, 126, rfl⟩
abbrev main_v40 : Ref sig .tc := ⟨.hbm, 127, rfl⟩
abbrev main_call6_c : Ref sig .tc := ⟨.hbm, 128, rfl⟩
abbrev main_call6_v0 : Ref sig .tc := ⟨.hbm, 129, rfl⟩
abbrev main_call6_v1 : Ref sig .tc := ⟨.hbm, 130, rfl⟩
abbrev main_call6_c_0 : Ref sig .tc := ⟨.hbm, 131, rfl⟩
abbrev main_call6_v2 : Ref sig .tc := ⟨.hbm, 132, rfl⟩
abbrev main_call6_v3 : Ref sig .tc := ⟨.hbm, 133, rfl⟩
abbrev main_call6_v4 : Ref sig .tc := ⟨.hbm, 134, rfl⟩
abbrev main_call6_v5 : Ref sig .tc := ⟨.hbm, 135, rfl⟩
abbrev main_call6_c_1 : Ref sig .tc := ⟨.hbm, 136, rfl⟩
abbrev main_call6_c_2 : Ref sig .tc := ⟨.hbm, 137, rfl⟩
abbrev main_call6_v6 : Ref sig .tc := ⟨.hbm, 138, rfl⟩
abbrev main_call6_v7 : Ref sig .tc := ⟨.hbm, 139, rfl⟩
abbrev main_call6_v8 : Ref sig .tc := ⟨.hbm, 140, rfl⟩
abbrev main_call6_v9 : Ref sig .tc := ⟨.hbm, 141, rfl⟩
abbrev main_call6_v10 : Ref sig .tc := ⟨.hbm, 142, rfl⟩
abbrev main_call6_v11 : Ref sig .tc := ⟨.hbm, 143, rfl⟩
abbrev main_call6_c_3 : Ref sig .tc := ⟨.hbm, 144, rfl⟩
abbrev main_call6_v12 : Ref sig .tc := ⟨.hbm, 145, rfl⟩
abbrev main_call6_v13 : Ref sig .tc := ⟨.hbm, 146, rfl⟩
abbrev main_call6_cst : Ref sig .tc := ⟨.hbm, 147, rfl⟩
abbrev main_call6_v14 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_cst_10 : Ref sig .tc := ⟨.hbm, 152, rfl⟩
abbrev main_v44 : Ref sig .tc := ⟨.hbm, 153, rfl⟩
abbrev main_v45 : Ref sig .tc := ⟨.hbm, 154, rfl⟩
abbrev main_cst_11 : Ref sig .tc := ⟨.hbm, 155, rfl⟩
abbrev main_v46 : Ref sig .tc := ⟨.hbm, 156, rfl⟩
abbrev main_v47 : Ref sig .tc := ⟨.hbm, 157, rfl⟩
abbrev main_v48 : Ref sig .tc := ⟨.hbm, 158, rfl⟩
abbrev main_c_12 : Ref sig .tc := ⟨.hbm, 159, rfl⟩
abbrev main_v49 : Ref sig .tc := ⟨.hbm, 160, rfl⟩
abbrev main_v50 : Ref sig .tc := ⟨.hbm, 161, rfl⟩
abbrev main_c_13 : Ref sig .tc := ⟨.hbm, 162, rfl⟩
abbrev main_v51 : Ref sig .tc := ⟨.hbm, 163, rfl⟩
abbrev main_v52 : Ref sig .tc := ⟨.hbm, 164, rfl⟩
abbrev main_v53 : Ref sig .tc := ⟨.hbm, 165, rfl⟩
abbrev main_v54 : Ref sig .tc := ⟨.hbm, 166, rfl⟩
abbrev main_c_14 : Ref sig .tc := ⟨.hbm, 167, rfl⟩
abbrev main_call7_v0 : Ref sig .tc := ⟨.hbm, 168, rfl⟩
abbrev main_call7_v1 : Ref sig .tc := ⟨.hbm, 169, rfl⟩
abbrev main_v55 : Ref sig .tc := ⟨.hbm, 170, rfl⟩
abbrev main_call8_cst : Ref sig .tc := ⟨.hbm, 171, rfl⟩
abbrev main_call8_v0 : Ref sig .tc := ⟨.hbm, 172, rfl⟩
abbrev main_call8_cst_0 : Ref sig .tc := ⟨.hbm, 173, rfl⟩
abbrev main_call8_v1 : Ref sig .tc := ⟨.hbm, 174, rfl⟩
abbrev main_call8_v2 : Ref sig .tc := ⟨.hbm, 175, rfl⟩
abbrev main_call8_v3 : Ref sig .tc := ⟨.hbm, 176, rfl⟩
abbrev main_call8_v4 : Ref sig .tc := ⟨.hbm, 177, rfl⟩
abbrev main_call8_v5 : Ref sig .tc := ⟨.hbm, 178, rfl⟩
abbrev main_call8_v6 : Ref sig .tc := ⟨.hbm, 179, rfl⟩
abbrev main_call8_cst_1 : Ref sig .tc := ⟨.hbm, 180, rfl⟩
abbrev main_call8_v7 : Ref sig .tc := ⟨.hbm, 181, rfl⟩
abbrev main_call8_v8 : Ref sig .tc := ⟨.hbm, 182, rfl⟩
abbrev main_call8_v9 : Ref sig .tc := ⟨.hbm, 183, rfl⟩
abbrev main_call8_v10 : Ref sig .tc := ⟨.hbm, 184, rfl⟩
abbrev main_v56 : Ref sig .tc := ⟨.hbm, 185, rfl⟩
abbrev main_v57 : Ref sig .tc := ⟨.hbm, 186, rfl⟩
abbrev main_call9_c : Ref sig .tc := ⟨.hbm, 187, rfl⟩
abbrev main_call9_v0 : Ref sig .tc := ⟨.hbm, 188, rfl⟩
abbrev main_call9_v1 : Ref sig .tc := ⟨.hbm, 189, rfl⟩
abbrev main_call9_c_0 : Ref sig .tc := ⟨.hbm, 190, rfl⟩
abbrev main_call9_v2 : Ref sig .tc := ⟨.hbm, 191, rfl⟩
abbrev main_call9_v3 : Ref sig .tc := ⟨.hbm, 192, rfl⟩
abbrev main_call9_v4 : Ref sig .tc := ⟨.hbm, 193, rfl⟩
abbrev main_call9_v5 : Ref sig .tc := ⟨.hbm, 194, rfl⟩
abbrev main_call9_c_1 : Ref sig .tc := ⟨.hbm, 195, rfl⟩
abbrev main_call9_c_2 : Ref sig .tc := ⟨.hbm, 196, rfl⟩
abbrev main_call9_v6 : Ref sig .tc := ⟨.hbm, 197, rfl⟩
abbrev main_call9_v7 : Ref sig .tc := ⟨.hbm, 198, rfl⟩
abbrev main_call9_v8 : Ref sig .tc := ⟨.hbm, 199, rfl⟩
abbrev main_call9_v9 : Ref sig .tc := ⟨.hbm, 200, rfl⟩
abbrev main_call9_v10 : Ref sig .tc := ⟨.hbm, 201, rfl⟩
abbrev main_call9_v11 : Ref sig .tc := ⟨.hbm, 202, rfl⟩
abbrev main_call9_c_3 : Ref sig .tc := ⟨.hbm, 203, rfl⟩
abbrev main_call9_v12 : Ref sig .tc := ⟨.hbm, 204, rfl⟩
abbrev main_call9_v13 : Ref sig .tc := ⟨.hbm, 205, rfl⟩
abbrev main_call9_cst : Ref sig .tc := ⟨.hbm, 206, rfl⟩
abbrev main_call9_v14 : Ref sig .tc := ⟨.hbm, 207, rfl⟩
abbrev main_v58 : Ref sig .tc := ⟨.hbm, 208, rfl⟩
abbrev main_v59 : Ref sig .tc := ⟨.hbm, 209, rfl⟩
abbrev main_v60 : Ref sig .tc := ⟨.hbm, 210, rfl⟩
abbrev main_cst_15 : Ref sig .tc := ⟨.hbm, 211, rfl⟩
abbrev main_v61 : Ref sig .tc := ⟨.hbm, 212, rfl⟩
abbrev main_v62 : Ref sig .tc := ⟨.hbm, 213, rfl⟩
abbrev main_cst_16 : Ref sig .tc := ⟨.hbm, 214, rfl⟩
abbrev main_v63 : Ref sig .tc := ⟨.hbm, 215, rfl⟩
abbrev main_v64 : Ref sig .tc := ⟨.hbm, 216, rfl⟩
abbrev main_v65 : Ref sig .tc := ⟨.hbm, 217, rfl⟩
abbrev main_c_17 : Ref sig .tc := ⟨.hbm, 218, rfl⟩
abbrev main_v66 : Ref sig .tc := ⟨.hbm, 219, rfl⟩
abbrev main_v67 : Ref sig .tc := ⟨.hbm, 220, rfl⟩
abbrev main_c_18 : Ref sig .tc := ⟨.hbm, 221, rfl⟩
abbrev main_v68 : Ref sig .tc := ⟨.hbm, 222, rfl⟩
abbrev main_v69 : Ref sig .tc := ⟨.hbm, 223, rfl⟩
abbrev main_v70 : Ref sig .tc := ⟨.hbm, 224, rfl⟩
abbrev main_v71 : Ref sig .tc := ⟨.hbm, 225, rfl⟩
abbrev main_c_19 : Ref sig .tc := ⟨.hbm, 226, rfl⟩
abbrev main_call10_v0 : Ref sig .tc := ⟨.hbm, 227, rfl⟩
abbrev main_call10_v1 : Ref sig .tc := ⟨.hbm, 228, rfl⟩
abbrev main_v72 : Ref sig .tc := ⟨.hbm, 229, rfl⟩
abbrev main_call11_cst : Ref sig .tc := ⟨.hbm, 230, rfl⟩
abbrev main_call11_v0 : Ref sig .tc := ⟨.hbm, 231, rfl⟩
abbrev main_call11_cst_0 : Ref sig .tc := ⟨.hbm, 232, rfl⟩
abbrev main_call11_v1 : Ref sig .tc := ⟨.hbm, 233, rfl⟩
abbrev main_call11_v2 : Ref sig .tc := ⟨.hbm, 234, rfl⟩
abbrev main_call11_v3 : Ref sig .tc := ⟨.hbm, 235, rfl⟩
abbrev main_call11_v4 : Ref sig .tc := ⟨.hbm, 236, rfl⟩
abbrev main_call11_v5 : Ref sig .tc := ⟨.hbm, 237, rfl⟩
abbrev main_call11_v6 : Ref sig .tc := ⟨.hbm, 238, rfl⟩
abbrev main_call11_cst_1 : Ref sig .tc := ⟨.hbm, 239, rfl⟩
abbrev main_call11_v7 : Ref sig .tc := ⟨.hbm, 240, rfl⟩
abbrev main_call11_v8 : Ref sig .tc := ⟨.hbm, 241, rfl⟩
abbrev main_call11_v9 : Ref sig .tc := ⟨.hbm, 242, rfl⟩
abbrev main_call11_v10 : Ref sig .tc := ⟨.hbm, 243, rfl⟩
abbrev main_v73 : Ref sig .tc := ⟨.hbm, 244, rfl⟩
abbrev main_v74 : Ref sig .tc := ⟨.hbm, 245, rfl⟩
abbrev main_call12_c : Ref sig .tc := ⟨.hbm, 246, rfl⟩
abbrev main_call12_v0 : Ref sig .tc := ⟨.hbm, 247, rfl⟩
abbrev main_call12_v1 : Ref sig .tc := ⟨.hbm, 248, rfl⟩
abbrev main_call12_c_0 : Ref sig .tc := ⟨.hbm, 249, rfl⟩
abbrev main_call12_v2 : Ref sig .tc := ⟨.hbm, 250, rfl⟩
abbrev main_call12_v3 : Ref sig .tc := ⟨.hbm, 251, rfl⟩
abbrev main_call12_v4 : Ref sig .tc := ⟨.hbm, 252, rfl⟩
abbrev main_call12_c_1 : Ref sig .tc := ⟨.hbm, 253, rfl⟩
abbrev main_call12_c_2 : Ref sig .tc := ⟨.hbm, 254, rfl⟩
abbrev main_call12_v5 : Ref sig .tc := ⟨.hbm, 255, rfl⟩
abbrev main_call12_v6 : Ref sig .tc := ⟨.hbm, 256, rfl⟩
abbrev main_call12_v7 : Ref sig .tc := ⟨.hbm, 257, rfl⟩
abbrev main_call12_v8 : Ref sig .tc := ⟨.hbm, 258, rfl⟩
abbrev main_call12_v9 : Ref sig .tc := ⟨.hbm, 259, rfl⟩
abbrev main_call12_c_3 : Ref sig .tc := ⟨.hbm, 260, rfl⟩
abbrev main_call12_v10 : Ref sig .tc := ⟨.hbm, 261, rfl⟩
abbrev main_call12_v11 : Ref sig .tc := ⟨.hbm, 262, rfl⟩
abbrev main_call12_v12 : Ref sig .tc := ⟨.hbm, 263, rfl⟩
abbrev main_call12_cst : Ref sig .tc := ⟨.hbm, 264, rfl⟩
abbrev main_call12_v13 : Ref sig .tc := ⟨.hbm, 265, rfl⟩
abbrev main_v75 : Ref sig .tc := ⟨.hbm, 266, rfl⟩
abbrev main_v76 : Ref sig .tc := ⟨.hbm, 267, rfl⟩
abbrev main_v77 : Ref sig .tc := ⟨.hbm, 268, rfl⟩
abbrev main_cst_20 : Ref sig .tc := ⟨.hbm, 269, rfl⟩
abbrev main_v78 : Ref sig .tc := ⟨.hbm, 270, rfl⟩
abbrev main_v79 : Ref sig .tc := ⟨.hbm, 271, rfl⟩
abbrev main_cst_21 : Ref sig .tc := ⟨.hbm, 272, rfl⟩
abbrev main_v80 : Ref sig .tc := ⟨.hbm, 273, rfl⟩
abbrev main_v81 : Ref sig .tc := ⟨.hbm, 274, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1x256x256x256_S256x256x256 : S1x256x256x256.ShapeCasts S256x256x256
  bcast_S_S256x256x256 : S_.BroadcastsInDim S256x256x256 (![] : Fin 0 → Fin S256x256x256.rank)
  shapeCasts_S256x256x256_S16x16x16x16x16x16 : S256x256x256.ShapeCasts S16x16x16x16x16x16
  transposes_S16x16x16x16x16x16_S16x16x16x16x16x16_0_2_4_1_3_5 : S16x16x16x16x16x16.Transposes [0, 2, 4, 1, 3, 5] S16x16x16x16x16x16
  shapeCasts_S16x16x16x16x16x16_S4096x4096 : S16x16x16x16x16x16.ShapeCasts S4096x4096
  shapeCasts_S4096x2x16x16x16_S4096x2x4096 : S4096x2x16x16x16.ShapeCasts S4096x2x4096
  inb_S1x1_S1x1_0_0 : ∀ a, (![0, 0] : Fin 2 → Nat) a + S1x1.size a ≤ S1x1.size a
  h_S1x1 : 0 < S1x1.numel
  inb_S128x2x4096_S128x1x4096_0_0_0 : ∀ a, (![0, 0, 0] : Fin 3 → Nat) a + S128x1x4096.size a ≤ S128x2x4096.size a
  h_S128x1x4096 : 0 < S128x1x4096.numel
  shapeCasts_S128x1x4096_S128x4096 : S128x1x4096.ShapeCasts S128x4096
  inb_S128x2x4096_S128x1x4096_0_1_0 : ∀ a, (![0, 1, 0] : Fin 3 → Nat) a + S128x1x4096.size a ≤ S128x2x4096.size a
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  reduces_S128x4096_S128 : S128x4096.Reduces [1] S128
  shapeCasts_S128_S128x1 : S128.ShapeCasts S128x1
  reduces_S128x1_S1 : S128x1.Reduces [0] S1
  shapeCasts_S1_S1x1 : S1.ShapeCasts S1x1
  shapeCasts_S1x1_S1x1 : S1x1.ShapeCasts S1x1
  shapeCasts_S1x1_S_ : S1x1.ShapeCasts S_
  reducesTo_S4096x4096_S4096_d1 : S4096x4096.ReducesTo [1] S4096
  h_S_ : 0 < S_.numel
  shapeCasts_S4096_S16x16x16 : S4096.ShapeCasts S16x16x16
  shapeCasts_S16x16x16_S8x2x8x2x8x2 : S16x16x16.ShapeCasts S8x2x8x2x8x2
  reducesTo_S8x2x8x2x8x2_S8x8x8_d1_3_5 : S8x2x8x2x8x2.ReducesTo [1, 3, 5] S8x8x8
  shapeCasts_S8x8x8_S512 : S8x8x8.ShapeCasts S512
  bcast_S_S512 : S_.BroadcastsInDim S512 (![] : Fin 0 → Fin S512.rank)
  reducesTo_S512x3_S512_d1 : S512x3.ReducesTo [1] S512
  bcast_S512_S512x1_0 : S512.BroadcastsInDim S512x1 (![0] : Fin 1 → Fin S512x1.rank)
  bcast_S512x1_S512x3_0_1 : S512x1.BroadcastsInDim S512x3 (![0, 1] : Fin 2 → Fin S512x3.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  shapeCasts_S8x8x8_S4x2x4x2x4x2 : S8x8x8.ShapeCasts S4x2x4x2x4x2
  reducesTo_S4x2x4x2x4x2_S4x4x4_d1_3_5 : S4x2x4x2x4x2.ReducesTo [1, 3, 5] S4x4x4
  shapeCasts_S4x4x4_S64 : S4x4x4.ShapeCasts S64
  bcast_S_S64 : S_.BroadcastsInDim S64 (![] : Fin 0 → Fin S64.rank)
  reducesTo_S64x3_S64_d1 : S64x3.ReducesTo [1] S64
  bcast_S64_S64x1_0 : S64.BroadcastsInDim S64x1 (![0] : Fin 1 → Fin S64x1.rank)
  bcast_S64x1_S64x3_0_1 : S64x1.BroadcastsInDim S64x3 (![0, 1] : Fin 2 → Fin S64x3.rank)
  bcast_S_S64x1 : S_.BroadcastsInDim S64x1 (![] : Fin 0 → Fin S64x1.rank)
  shapeCasts_S64x1_S64x1x1 : S64x1.ShapeCasts S64x1x1
  bcast_S_S64x1x1 : S_.BroadcastsInDim S64x1x1 (![] : Fin 0 → Fin S64x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  shapeCasts_S64x1_S64 : S64x1.ShapeCasts S64
  reducesTo_S64_S_d0 : S64.ReducesTo [0] S_
  shapeCasts_S4x4x4_S2x2x2x2x2x2 : S4x4x4.ShapeCasts S2x2x2x2x2x2
  reducesTo_S2x2x2x2x2x2_S2x2x2_d1_3_5 : S2x2x2x2x2x2.ReducesTo [1, 3, 5] S2x2x2
  shapeCasts_S2x2x2_S8 : S2x2x2.ShapeCasts S8
  bcast_S_S8 : S_.BroadcastsInDim S8 (![] : Fin 0 → Fin S8.rank)
  reducesTo_S8x3_S8_d1 : S8x3.ReducesTo [1] S8
  bcast_S8_S8x1_0 : S8.BroadcastsInDim S8x1 (![0] : Fin 1 → Fin S8x1.rank)
  bcast_S8x1_S8x3_0_1 : S8x1.BroadcastsInDim S8x3 (![0, 1] : Fin 2 → Fin S8x3.rank)
  bcast_S_S8x1 : S_.BroadcastsInDim S8x1 (![] : Fin 0 → Fin S8x1.rank)
  shapeCasts_S8x1_S8x1x1 : S8x1.ShapeCasts S8x1x1
  bcast_S_S8x1x1 : S_.BroadcastsInDim S8x1x1 (![] : Fin 0 → Fin S8x1x1.rank)
  bcast_S1x1x1_S8x1x1_0_1_2 : S1x1x1.BroadcastsInDim S8x1x1 (![0, 1, 2] : Fin 3 → Fin S8x1x1.rank)
  reducesTo_S8x1x1_S8x1_d2 : S8x1x1.ReducesTo [2] S8x1
  shapeCasts_S8x1_S8 : S8x1.ShapeCasts S8
  reducesTo_S8_S_d0 : S8.ReducesTo [0] S_
  shapeCasts_S2x2x2_S1x2x1x2x1x2 : S2x2x2.ShapeCasts S1x2x1x2x1x2
  reducesTo_S1x2x1x2x1x2_S1x1x1_d1_3_5 : S1x2x1x2x1x2.ReducesTo [1, 3, 5] S1x1x1
  shapeCasts_S1x1x1_S1 : S1x1x1.ShapeCasts S1
  bcast_S_S1 : S_.BroadcastsInDim S1 (![] : Fin 0 → Fin S1.rank)
  reducesTo_S1x3_S1_d1 : S1x3.ReducesTo [1] S1
  bcast_S1_S1x1_0 : S1.BroadcastsInDim S1x1 (![0] : Fin 1 → Fin S1x1.rank)
  bcast_S1x1_S1x3_0_1 : S1x1.BroadcastsInDim S1x3 (![0, 1] : Fin 2 → Fin S1x3.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  shapeCasts_S1x1_S1 : S1x1.ShapeCasts S1
  reducesTo_S1_S_d0 : S1.ReducesTo [0] S_
  gather_S512x3_S512x1x1_S512x1_n_1_0_0_1_2_11_wf : GatherDims.WF S512x3 S512x1x1 S512x1 [] [1] [0] [1] [0] 2 ![1, 1]
  gather_S64x3_S64x1x1_S64x1_n_1_0_0_1_2_11_wf : GatherDims.WF S64x3 S64x1x1 S64x1 [] [1] [0] [1] [0] 2 ![1, 1]
  gather_S8x3_S8x1x1_S8x1_n_1_0_0_1_2_11_wf : GatherDims.WF S8x3 S8x1x1 S8x1 [] [1] [0] [1] [0] 2 ![1, 1]
  gather_S1x3_S1x1_S1x1_0_1_n_n_1_1_11_wf : GatherDims.WF S1x3 S1x1 S1x1 [0] [1] [] [1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2x4096.size a ≤ S4096x2x4096.size a
  hwx0_0 : ∀ i : grid0.Coords, EltTy.bits .f32 = 32 ∨ (Rect.block (s := S4096x2x4096) S128x2x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .i32 = 32 ∨ (Rect.block (s := S4096x4096) S128x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S512x3_S512x1x1_S512x1_n_1_0_0_1_2_11 : GatherDims S512x3 S512x1x1 S512x1 where
  offsetDims := []
  collapsedSliceDims := [1]
  operandBatchingDims := [0]
  startIndicesBatchingDims := [0]
  startIndexMap := [1]
  indexVectorDim := 2
  sliceSizes := ![1, 1]
  wf := gather_S512x3_S512x1x1_S512x1_n_1_0_0_1_2_11_wf
def gather_S64x3_S64x1x1_S64x1_n_1_0_0_1_2_11 : GatherDims S64x3 S64x1x1 S64x1 where
  offsetDims := []
  collapsedSliceDims := [1]
  operandBatchingDims := [0]
  startIndicesBatchingDims := [0]
  startIndexMap := [1]
  indexVectorDim := 2
  sliceSizes := ![1, 1]
  wf := gather_S64x3_S64x1x1_S64x1_n_1_0_0_1_2_11_wf
def gather_S8x3_S8x1x1_S8x1_n_1_0_0_1_2_11 : GatherDims S8x3 S8x1x1 S8x1 where
  offsetDims := []
  collapsedSliceDims := [1]
  operandBatchingDims := [0]
  startIndicesBatchingDims := [0]
  startIndexMap := [1]
  indexVectorDim := 2
  sliceSizes := ![1, 1]
  wf := gather_S8x3_S8x1x1_S8x1_n_1_0_0_1_2_11_wf
def gather_S1x3_S1x1_S1x1_0_1_n_n_1_1_11 : GatherDims S1x3 S1x1 S1x1 where
  offsetDims := [0]
  collapsedSliceDims := [1]
  operandBatchingDims := []
  startIndicesBatchingDims := []
  startIndexMap := [1]
  indexVectorDim := 1
  sliceSizes := ![1, 1]
  wf := gather_S1x3_S1x1_S1x1_0_1_n_n_1_1_11_wf

abbrev win0_0 : Pipeline.Window sig grid0 :=
  Pipeline.Window.ofSpec (Memref.whole main_v7) S128x2x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x256x256x256 : Shape := ⟨4, ![1, 256, 256, 256]⟩
abbrev S4096x2x16x16x16 : Shape := ⟨5, ![4096, 2, 16, 16, 16]⟩
abbrev S512x3 : Shape := ⟨2, ![512, 3]⟩
abbrev S64x3 : Shape := ⟨2, ![64, 3]⟩
abbrev S8x3 : Shape := ⟨2, ![8, 3]⟩
abbrev S1x3 : Shape := ⟨2, ![1, 3]⟩
abbrev S256x256x256 : Shape := ⟨3, ![256, 256, 256]⟩
abbrev S_ : Shape := ⟨0, ![]⟩
abbrev S16x16x16x16x16x16 : Shape := ⟨6, ![16, 16, 16, 16, 16, 16]⟩
abbrev S4096x4096 : Shape := ⟨2, ![4096, 4096]⟩
abbrev S4096x16x16x16 : Shape := ⟨4, ![4096, 16, 16, 16]⟩
abbrev S4096x1x16x16x16 : Shape := ⟨5, ![4096, 1, 16, 16, 16]⟩
abbrev S4096x2x4096 : Shape := ⟨3, ![4096, 2, 4096]⟩
abbrev S4096x1x4096 : Shape := ⟨3, ![4096, 1, 4096]⟩
abbrev S4096x1x4096x1 : Shape := ⟨4, ![4096, 1, 4096, 1]⟩
abbrev S1 : Shape := ⟨1, ![1]⟩
abbrev S1x1x1x1 : Shape := ⟨4, ![1, 1, 1, 1]⟩
abbrev S4096 : Shape := ⟨1, ![4096]⟩
abbrev S8x32x8x32x8x32 : Shape := ⟨6, ![8, 32, 8, 32, 8, 32]⟩
abbrev S8x8x8x32x32x32 : Shape := ⟨6, ![8, 8, 8, 32, 32, 32]⟩
abbrev S512x32768 : Shape := ⟨2, ![512, 32768]⟩
abbrev S512 : Shape := ⟨1, ![512]⟩
abbrev S512x1 : Shape := ⟨2, ![512, 1]⟩
abbrev S512x1x1 : Shape := ⟨3, ![512, 1, 1]⟩
abbrev S1x1x1 : Shape := ⟨3, ![1, 1, 1]⟩
abbrev S4x64x4x64x4x64 : Shape := ⟨6, ![4, 64, 4, 64, 4, 64]⟩
abbrev S4x4x4x64x64x64 : Shape := ⟨6, ![4, 4, 4, 64, 64, 64]⟩
abbrev S64x262144 : Shape := ⟨2, ![64, 262144]⟩
abbrev S64 : Shape := ⟨1, ![64]⟩
abbrev S64x1 : Shape := ⟨2, ![64, 1]⟩
abbrev S64x1x1 : Shape := ⟨3, ![64, 1, 1]⟩
abbrev S2x128x2x128x2x128 : Shape := ⟨6, ![2, 128, 2, 128, 2, 128]⟩
abbrev S2x2x2x128x128x128 : Shape := ⟨6, ![2, 2, 2, 128, 128, 128]⟩
abbrev S8x2097152 : Shape := ⟨2, ![8, 2097152]⟩
abbrev S8 : Shape := ⟨1, ![8]⟩
abbrev S8x1 : Shape := ⟨2, ![8, 1]⟩
abbrev S8x1x1 : Shape := ⟨3, ![8, 1, 1]⟩
abbrev S1x256x1x256x1x256 : Shape := ⟨6, ![1, 256, 1, 256, 1, 256]⟩
abbrev S1x1x1x256x256x256 : Shape := ⟨6, ![1, 1, 1, 256, 256, 256]⟩
abbrev S1x16777216 : Shape := ⟨2, ![1, 16777216]⟩
abbrev S1x1 : Shape := ⟨2, ![1, 1]⟩

abbrev nBuf : Space → Nat
  | .hbm => 310
  | .vmem => 0
  | .smem => 0
  | _ => 0

abbrev hbmTy0_0 (i : Nat) : BufTy := match i % 128 with
  | 0 => ⟨S1x256x256x256, .i32⟩
  | 1 => ⟨S4096x2x16x16x16, .f32⟩
  | 2 => ⟨S512x3, .f32⟩
  | 3 => ⟨S64x3, .f32⟩
  | 4 => ⟨S8x3, .f32⟩
  | 5 => ⟨S1x3, .f32⟩
  | 6 => ⟨S256x256x256, .i32⟩
  | 7 => ⟨S_, .i32⟩
  | 8 => ⟨S256x256x256, .i32⟩
  | 9 => ⟨S256x256x256, .i32⟩
  | 10 => ⟨S_, .i32⟩
  | 11 => ⟨S_, .i32⟩
  | 12 => ⟨S256x256x256, .i32⟩
  | 13 => ⟨S256x256x256, .i32⟩
  | 14 => ⟨S256x256x256, .i32⟩
  | 15 => ⟨S_, .i32⟩
  | 16 => ⟨S256x256x256, .i32⟩
  | 17 => ⟨S256x256x256, .i1⟩
  | 18 => ⟨S256x256x256, .i32⟩
  | 19 => ⟨S256x256x256, .i32⟩
  | 20 => ⟨S_, .i32⟩
  | 21 => ⟨S256x256x256, .i32⟩
  | 22 => ⟨S256x256x256, .i1⟩
  | 23 => ⟨S256x256x256, .i1⟩
  | 24 => ⟨S_, .i32⟩
  | 25 => ⟨S256x256x256, .i32⟩
  | 26 => ⟨S256x256x256, .i32⟩
  | 27 => ⟨S256x256x256, .i32⟩
  | 28 => ⟨S16x16x16x16x16x16, .i32⟩
  | 29 => ⟨S16x16x16x16x16x16, .i32⟩
  | 30 => ⟨S4096x4096, .i32⟩
  | 31 => ⟨S_, .f32⟩
  | 32 => ⟨S4096x16x16x16, .f32⟩
  | 33 => ⟨S_, .f32⟩
  | 34 => ⟨S4096x16x16x16, .f32⟩
  | 35 => ⟨S4096x16x16x16, .f32⟩
  | 36 => ⟨S4096x1x16x16x16, .f32⟩
  | 37 => ⟨S4096x2x16x16x16, .f32⟩
  | 38 => ⟨S4096x2x16x16x16, .f32⟩
  | 39 => ⟨S4096x2x16x16x16, .f32⟩
  | 40 => ⟨S_, .f32⟩
  | 41 => ⟨S4096x16x16x16, .f32⟩
  | 42 => ⟨S4096x1x16x16x16, .f32⟩
  | 43 => ⟨S4096x1x16x16x16, .f32⟩
  | 44 => ⟨S4096x2x16x16x16, .f32⟩
  | 45 => ⟨S4096x2x16x16x16, .f32⟩
  | 46 => ⟨S4096x2x4096, .f32⟩
  | 47 => ⟨S4096x1x4096, .i32⟩
  | 48 => ⟨S_, .i32⟩
  | 49 => ⟨S4096x1x4096, .i32⟩
  | 50 => ⟨S4096x1x4096, .i1⟩
  | 51 => ⟨S_, .i32⟩
  | 52 => ⟨S4096x1x4096, .i32⟩
  | 53 => ⟨S4096x1x4096, .i32⟩
  | 54 => ⟨S4096x1x4096, .i32⟩
  | 55 => ⟨S4096x1x4096x1, .i32⟩
  | 56 => ⟨S1, .i32⟩
  | 57 => ⟨S_, .i32⟩
  | 58 => ⟨S4096x1x4096x1, .i32⟩
  | 59 => ⟨S4096x1x4096x1, .i1⟩
  | 60 => ⟨S1x1x1x1, .i32⟩
  | 61 => ⟨S4096x1x4096x1, .i32⟩
  | 62 => ⟨S4096x1x4096x1, .i1⟩
  | 63 => ⟨S4096x1x4096x1, .i1⟩
  | 64 => ⟨S_, .i1⟩
  | 65 => ⟨S4096x1x4096, .i1⟩
  | 66 => ⟨S4096x1x4096, .f32⟩
  | 67 => ⟨S_, .f32⟩
  | 68 => ⟨S4096x1x4096, .f32⟩
  | 69 => ⟨S4096x1x4096, .f32⟩
  | 70 => ⟨S4096x4096, .f32⟩
  | 71 => ⟨S4096x4096, .f32⟩
  | 72 => ⟨S_, .f32⟩
  | 73 => ⟨S4096, .f32⟩
  | 74 => ⟨S_, .f32⟩
  | 75 => ⟨S4096, .f32⟩
  | 76 => ⟨S4096, .f32⟩
  | 77 => ⟨S_, .f32⟩
  | 78 => ⟨S_, .f32⟩
  | 79 => ⟨S8x32x8x32x8x32, .i32⟩
  | 80 => ⟨S8x8x8x32x32x32, .i32⟩
  | 81 => ⟨S512x32768, .i32⟩
  | 82 => ⟨S_, .i32⟩
  | 83 => ⟨S512, .i32⟩
  | 84 => ⟨S_, .i32⟩
  | 85 => ⟨S512, .i32⟩
  | 86 => ⟨S512, .i1⟩
  | 87 => ⟨S_, .i32⟩
  | 88 => ⟨S_, .i32⟩
  | 89 => ⟨S512, .i32⟩
  | 90 => ⟨S512, .i32⟩
  | 91 => ⟨S_, .f32⟩
  | 92 => ⟨S512, .f32⟩
  | 93 => ⟨S_, .f32⟩
  | 94 => ⟨S512, .f32⟩
  | 95 => ⟨S512, .f32⟩
  | 96 => ⟨S512x1, .f32⟩
  | 97 => ⟨S512x3, .f32⟩
  | 98 => ⟨S512x3, .f32⟩
  | 99 => ⟨S512x3, .f32⟩
  | 100 => ⟨S_, .f32⟩
  | 101 => ⟨S512, .f32⟩
  | 102 => ⟨S512x1, .f32⟩
  | 103 => ⟨S512x1, .f32⟩
  | 104 => ⟨S512x3, .f32⟩
  | 105 => ⟨S512x3, .f32⟩
  | 106 => ⟨S512x1, .i32⟩
  | 107 => ⟨S_, .i32⟩
  | 108 => ⟨S512x1, .i32⟩
  | 109 => ⟨S512x1, .i1⟩
  | 110 => ⟨S_, .i32⟩
  | 111 => ⟨S512x1, .i32⟩
  | 112 => ⟨S512x1, .i32⟩
  | 113 => ⟨S512x1, .i32⟩
  | 114 => ⟨S512x1x1, .i32⟩
  | 115 => ⟨S1, .i32⟩
  | 116 => ⟨S_, .i32⟩
  | 117 => ⟨S512x1x1, .i32⟩
  | 118 => ⟨S512x1x1, .i1⟩
  | 119 => ⟨S1x1x1, .i32⟩
  | 120 => ⟨S512x1x1, .i32⟩
  | 121 => ⟨S512x1x1, .i1⟩
  | 122 => ⟨S512x1x1, .i1⟩
  | 123 => ⟨S_, .i1⟩
  | 124 => ⟨S512x1, .i1⟩
  | 125 => ⟨S512x1, .f32⟩
  | 126 => ⟨S_, .f32⟩
  | 127 => ⟨S512x1, .f32⟩
  | _ => ⟨S1x256x256x256, .i32⟩

abbrev hbmTy0_1 (i : Nat) : BufTy := match i % 128 with
  | 0 => ⟨S512x1, .f32⟩
  | 1 => ⟨S512, .f32⟩
  | 2 => ⟨S512, .f32⟩
  | 3 => ⟨S_, .f32⟩
  | 4 => ⟨S512, .f32⟩
  | 5 => ⟨S512, .f32⟩
  | 6 => ⟨S_, .f32⟩
  | 7 => ⟨S_, .f32⟩
  | 8 => ⟨S_, .f32⟩
  | 9 => ⟨S4x64x4x64x4x64, .i32⟩
  | 10 => ⟨S4x4x4x64x64x64, .i32⟩
  | 11 => ⟨S64x262144, .i32⟩
  | 12 => ⟨S_, .i32⟩
  | 13 => ⟨S64, .i32⟩
  | 14 => ⟨S_, .i32⟩
  | 15 => ⟨S64, .i32⟩
  | 16 => ⟨S64, .i1⟩
  | 17 => ⟨S_, .i32⟩
  | 18 => ⟨S_, .i32⟩
  | 19 => ⟨S64, .i32⟩
  | 20 => ⟨S64, .i32⟩
  | 21 => ⟨S_, .f32⟩
  | 22 => ⟨S64, .f32⟩
  | 23 => ⟨S_, .f32⟩
  | 24 => ⟨S64, .f32⟩
  | 25 => ⟨S64, .f32⟩
  | 26 => ⟨S64x1, .f32⟩
  | 27 => ⟨S64x3, .f32⟩
  | 28 => ⟨S64x3, .f32⟩
  | 29 => ⟨S64x3, .f32⟩
  | 30 => ⟨S_, .f32⟩
  | 31 => ⟨S64, .f32⟩
  | 32 => ⟨S64x1, .f32⟩
  | 33 => ⟨S64x1, .f32⟩
  | 34 => ⟨S64x3, .f32⟩
  | 35 => ⟨S64x3, .f32⟩
  | 36 => ⟨S64x1, .i32⟩
  | 37 => ⟨S_, .i32⟩
  | 38 => ⟨S64x1, .i32⟩
  | 39 => ⟨S64x1, .i1⟩
  | 40 => ⟨S_, .i32⟩
  | 41 => ⟨S64x1, .i32⟩
  | 42 => ⟨S64x1, .i32⟩
  | 43 => ⟨S64x1, .i32⟩
  | 44 => ⟨S64x1x1, .i32⟩
  | 45 => ⟨S1, .i32⟩
  | 46 => ⟨S_, .i32⟩
  | 47 => ⟨S64x1x1, .i32⟩
  | 48 => ⟨S64x1x1, .i1⟩
  | 49 => ⟨S1x1x1, .i32⟩
  | 50 => ⟨S64x1x1, .i32⟩
  | 51 => ⟨S64x1x1, .i1⟩
  | 52 => ⟨S64x1x1, .i1⟩
  | 53 => ⟨S_, .i1⟩
  | 54 => ⟨S64x1, .i1⟩
  | 55 => ⟨S64x1, .f32⟩
  | 56 => ⟨S_, .f32⟩
  | 57 => ⟨S64x1, .f32⟩
  | 58 => ⟨S64x1, .f32⟩
  | 59 => ⟨S64, .f32⟩
  | 60 => ⟨S64, .f32⟩
  | 61 => ⟨S_, .f32⟩
  | 62 => ⟨S64, .f32⟩
  | 63 => ⟨S64, .f32⟩
  | 64 => ⟨S_, .f32⟩
  | 65 => ⟨S_, .f32⟩
  | 66 => ⟨S_, .f32⟩
  | 67 => ⟨S2x128x2x128x2x128, .i32⟩
  | 68 => ⟨S2x2x2x128x128x128, .i32⟩
  | 69 => ⟨S8x2097152, .i32⟩
  | 70 => ⟨S_, .i32⟩
  | 71 => ⟨S8, .i32⟩
  | 72 => ⟨S_, .i32⟩
  | 73 => ⟨S8, .i32⟩
  | 74 => ⟨S8, .i1⟩
  | 75 => ⟨S_, .i32⟩
  | 76 => ⟨S_, .i32⟩
  | 77 => ⟨S8, .i32⟩
  | 78 => ⟨S8, .i32⟩
  | 79 => ⟨S_, .f32⟩
  | 80 => ⟨S8, .f32⟩
  | 81 => ⟨S_, .f32⟩
  | 82 => ⟨S8, .f32⟩
  | 83 => ⟨S8, .f32⟩
  | 84 => ⟨S8x1, .f32⟩
  | 85 => ⟨S8x3, .f32⟩
  | 86 => ⟨S8x3, .f32⟩
  | 87 => ⟨S8x3, .f32⟩
  | 88 => ⟨S_, .f32⟩
  | 89 => ⟨S8, .f32⟩
  | 90 => ⟨S8x1, .f32⟩
  | 91 => ⟨S8x1, .f32⟩
  | 92 => ⟨S8x3, .f32⟩
  | 93 => ⟨S8x3, .f32⟩
  | 94 => ⟨S8x1, .i32⟩
  | 95 => ⟨S_, .i32⟩
  | 96 => ⟨S8x1, .i32⟩
  | 97 => ⟨S8x1, .i1⟩
  | 98 => ⟨S_, .i32⟩
  | 99 => ⟨S8x1, .i32⟩
  | 100 => ⟨S8x1, .i32⟩
  | 101 => ⟨S8x1, .i32⟩
  | 102 => ⟨S8x1x1, .i32⟩
  | 103 => ⟨S1, .i32⟩
  | 104 => ⟨S_, .i32⟩
  | 105 => ⟨S8x1x1, .i32⟩
  | 106 => ⟨S8x1x1, .i1⟩
  | 107 => ⟨S1x1x1, .i32⟩
  | 108 => ⟨S8x1x1, .i32⟩
  | 109 => ⟨S8x1x1, .i1⟩
  | 110 => ⟨S8x1x1, .i1⟩
  | 111 => ⟨S_, .i1⟩
  | 112 => ⟨S8x1, .i1⟩
  | 113 => ⟨S8x1, .f32⟩
  | 114 => ⟨S_, .f32⟩
  | 115 => ⟨S8x1, .f32⟩
  | 116 => ⟨S8x1, .f32⟩
  | 117 => ⟨S8, .f32⟩
  | 118 => ⟨S8, .f32⟩
  | 119 => ⟨S_, .f32⟩
  | 120 => ⟨S8, .f32⟩
  | 121 => ⟨S8, .f32⟩
  | 122 => ⟨S_, .f32⟩
  | 123 => ⟨S_, .f32⟩
  | 124 => ⟨S_, .f32⟩
  | 125 => ⟨S1x256x1x256x1x256, .i32⟩
  | 126 => ⟨S1x1x1x256x256x256, .i32⟩
  | 127 => ⟨S1x16777216, .i32⟩
  | _ => ⟨S1x256x256x256, .i32⟩

abbrev hbmTy0_2 (i : Nat) : BufTy := match i % 128 with
  | 0 => ⟨S_, .i32⟩
  | 1 => ⟨S1, .i32⟩
  | 2 => ⟨S_, .i32⟩
  | 3 => ⟨S1, .i32⟩
  | 4 => ⟨S1, .i1⟩
  | 5 => ⟨S_, .i32⟩
  | 6 => ⟨S_, .i32⟩
  | 7 => ⟨S1, .i32⟩
  | 8 => ⟨S1, .i32⟩
  | 9 => ⟨S_, .f32⟩
  | 10 => ⟨S1, .f32⟩
  | 11 => ⟨S_, .f32⟩
  | 12 => ⟨S1, .f32⟩
  | 13 => ⟨S1, .f32⟩
  | 14 => ⟨S1x1, .f32⟩
  | 15 => ⟨S1x3, .f32⟩
  | 16 => ⟨S1x3, .f32⟩
  | 17 => ⟨S1x3, .f32⟩
  | 18 => ⟨S_, .f32⟩
  | 19 => ⟨S1, .f32⟩
  | 20 => ⟨S1x1, .f32⟩
  | 21 => ⟨S1x1, .f32⟩
  | 22 => ⟨S1x3, .f32⟩
  | 23 => ⟨S1x3, .f32⟩
  | 24 => ⟨S1x1, .i32⟩
  | 25 => ⟨S_, .i32⟩
  | 26 => ⟨S1x1, .i32⟩
  | 27 => ⟨S1x1, .i1⟩
  | 28 => ⟨S_, .i32⟩
  | 29 => ⟨S1x1, .i32⟩
  | 30 => ⟨S1x1, .i32⟩
  | 31 => ⟨S1x1, .i32⟩
  | 32 => ⟨S1, .i32⟩
  | 33 => ⟨S_, .i32⟩
  | 34 => ⟨S1x1, .i32⟩
  | 35 => ⟨S1x1, .i1⟩
  | 36 => ⟨S1x1, .i32⟩
  | 37 => ⟨S1x1, .i1⟩
  | 38 => ⟨S1x1, .i1⟩
  | 39 => ⟨S_, .i1⟩
  | 40 => ⟨S1, .i1⟩
  | 41 => ⟨S1x1, .f32⟩
  | 42 => ⟨S1x1, .i1⟩
  | 43 => ⟨S_, .f32⟩
  | 44 => ⟨S1x1, .f32⟩
  | 45 => ⟨S1x1, .f32⟩
  | 46 => ⟨S1, .f32⟩
  | 47 => ⟨S1, .f32⟩
  | 48 => ⟨S_, .f32⟩
  | 49 => ⟨S1, .f32⟩
  | 50 => ⟨S1, .f32⟩
  | 51 => ⟨S_, .f32⟩
  | 52 => ⟨S_, .f32⟩
  | 53 => ⟨S_, .f32⟩
  | _ => ⟨S1x256x256x256, .i32⟩

abbrev hbmTy (i : Nat) : BufTy := match i / 128 with
  | 0 => hbmTy0_0 i
  | 1 => hbmTy0_1 i
  | 2 => hbmTy0_2 i
  | _ => ⟨S1x256x256x256, .i32⟩

abbrev bufTy : (tb : Table) → Fin (tcTables nBuf tb) → BufTy
  | .hbm, ⟨i, _⟩ => hbmTy i
  | _, _ => ⟨S1x256x256x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_cst : Ref sig .tc := ⟨.hbm, 67, rfl⟩
abbrev main_call2_v14 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_cst : Ref sig .tc := ⟨.hbm, 72, rfl⟩
abbrev main_v13 : Ref sig .tc := ⟨.hbm, 73, rfl⟩
abbrev main_cst_1 : Ref sig .tc := ⟨.hbm, 74, rfl⟩
abbrev main_v14 : Ref sig .tc := ⟨.hbm, 75, rfl⟩
abbrev main_v15 : Ref sig .tc := ⟨.hbm, 76, rfl⟩
abbrev main_cst_2 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_c_3 : Ref sig .tc := ⟨.hbm, 82, rfl⟩
abbrev main_v20 : Ref sig .tc := ⟨.hbm, 83, rfl⟩
abbrev main_c_4 : Ref sig .tc := ⟨.hbm, 84, rfl⟩
abbrev main_v21 : Ref sig .tc := ⟨.hbm, 85, rfl⟩
abbrev main_v22 : Ref sig .tc := ⟨.hbm, 86, rfl⟩
abbrev main_c_5 : Ref sig .tc := ⟨.hbm, 87, rfl⟩
abbrev main_call3_v0 : Ref sig .tc := ⟨.hbm, 88, rfl⟩
abbrev main_call3_v1 : Ref sig .tc := ⟨.hbm, 89, rfl⟩
abbrev main_v23 : Ref sig .tc := ⟨.hbm, 90, rfl⟩
abbrev main_call4_cst : Ref sig .tc := ⟨.hbm, 91, rfl⟩
abbrev main_call4_v0 : Ref sig .tc := ⟨.hbm, 92, rfl⟩
abbrev main_call4_cst_0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_v6 : Ref sig .tc := ⟨.hbm, 99, rfl⟩
abbrev main_call4_cst_1 : Ref sig .tc := ⟨.hbm, 100, rfl⟩
abbrev main_call4_v7 : Ref sig .tc := ⟨.hbm, 101, rfl⟩
abbrev main_call4_v8 : Ref sig .tc := ⟨.hbm, 102, rfl⟩
abbrev main_call4_v9 : Ref sig .tc := ⟨.hbm, 103, rfl⟩
abbrev main_call4_v10 : Ref sig .tc := ⟨.hbm, 104, rfl⟩
abbrev main_v24 : Ref sig .tc := ⟨.hbm, 105, rfl⟩
abbrev main_v25 : Ref sig .tc := ⟨.hbm, 106, rfl⟩
abbrev main_call5_c : Ref sig .tc := ⟨.hbm, 107, rfl⟩
abbrev main_call5_v0 : Ref sig .tc := ⟨.hbm, 108, rfl⟩
abbrev main_call5_v1 : Ref sig .tc := ⟨.hbm, 109, rfl⟩
abbrev main_call5_c_0 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_c_1 : Ref sig .tc := ⟨.hbm, 115, rfl⟩
abbrev main_call5_c_2 : Ref sig .tc := ⟨.hbm, 116, rfl⟩
abbrev main_call5_v6 : Ref sig .tc := ⟨.hbm, 117, rfl⟩
abbrev main_call5_v7 : Ref sig .tc := ⟨.hbm, 118, rfl⟩
abbrev main_call5_v8 : Ref sig .tc := ⟨.hbm, 119, rfl⟩
abbrev main_call5_v9 : Ref sig .tc := ⟨.hbm, 120, rfl⟩
abbrev main_call5_v10 : Ref sig .tc := ⟨.hbm, 121, rfl⟩
abbrev main_call5_v11 : Ref sig .tc := ⟨.hbm, 122, rfl⟩
abbrev main_call5_c_3 : Ref sig .tc := ⟨.hbm, 123, rfl⟩
abbrev main_call5_v12 : Ref sig .tc := ⟨.hbm, 124, rfl⟩
abbrev main_call5_v13 : Ref sig .tc := ⟨.hbm, 125, rfl⟩
abbrev main_call5_cst : Ref sig .tc := ⟨.hbm, 126, rfl⟩
abbrev main_call5_v14 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev main_cst_6 : Ref sig .tc := ⟨.hbm, 131, rfl⟩
abbrev main_v29 : Ref sig .tc := ⟨.hbm, 132, rfl⟩
abbrev main_v30 : Ref sig .tc := ⟨.hbm, 133, rfl⟩
abbrev main_cst_7 : Ref sig .tc := ⟨.hbm, 134, rfl⟩
abbrev main_v31 : Ref sig .tc := ⟨.hbm, 135, rfl⟩
abbrev main_v32 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_c_8 : Ref sig .tc := ⟨.hbm, 140, rfl⟩
abbrev main_v36 : Ref sig .tc := ⟨.hbm, 141, rfl⟩
abbrev main_c_9 : Ref sig .tc := ⟨.hbm, 142, rfl⟩
abbrev main_v37 : Ref sig .tc := ⟨.hbm, 143, rfl⟩
abbrev main_v38 : Ref sig .tc := ⟨.hbm, 144, rfl⟩
abbrev main_c_10 : Ref sig .tc := ⟨.hbm, 145, rfl⟩
abbrev main_call6_v0 : Ref sig .tc := ⟨.hbm, 146, rfl⟩
abbrev main_call6_v1 : Ref sig .tc := ⟨.hbm, 147, rfl⟩
abbrev main_v39 : Ref sig .tc := ⟨.hbm, 148, rfl⟩
abbrev main_call7_cst : Ref sig .tc := ⟨.hbm, 149, rfl⟩
abbrev main_call7_v0 : Ref sig .tc := ⟨.hbm, 150, rfl⟩
abbrev main_call7_cst_0 : Ref sig .tc := ⟨.hbm, 151, rfl⟩
abbrev main_call7_v1 : Ref sig .tc := ⟨.hbm, 152, rfl⟩
abbrev main_call7_v2 : Ref sig .tc := ⟨.hbm, 153, rfl⟩
abbrev main_call7_v3 : Ref sig .tc := ⟨.hbm, 154, rfl⟩
abbrev main_call7_v4 : Ref sig .tc := ⟨.hbm, 155, rfl⟩
abbrev main_call7_v5 : Ref sig .tc := ⟨.hbm, 156, rfl⟩
abbrev main_call7_v6 : Ref sig .tc := ⟨.hbm, 157, rfl⟩
abbrev main_call7_cst_1 : Ref sig .tc := ⟨.hbm, 158, rfl⟩
abbrev main_call7_v7 : Ref sig .tc := ⟨.hbm, 159, rfl⟩
abbrev main_call7_v8 : Ref sig .tc := ⟨.hbm, 160, rfl⟩
abbrev main_call7_v9 : Ref sig .tc := ⟨.hbm, 161, rfl⟩
abbrev main_call7_v10 : Ref sig .tc := ⟨.hbm, 162, rfl⟩
abbrev main_v40 : Ref sig .tc := ⟨.hbm, 163, rfl⟩
abbrev main_v41 : Ref sig .tc := ⟨.hbm, 164, rfl⟩
abbrev main_call8_c : Ref sig .tc := ⟨.hbm, 165, rfl⟩
abbrev main_call8_v0 : Ref sig .tc := ⟨.hbm, 166, rfl⟩
abbrev main_call8_v1 : Ref sig .tc := ⟨.hbm, 167, rfl⟩
abbrev main_call8_c_0 : Ref sig .tc := ⟨.hbm, 168, rfl⟩
abbrev main_call8_v2 : Ref sig .tc := ⟨.hbm, 169, rfl⟩
abbrev main_call8_v3 : Ref sig .tc := ⟨.hbm, 170, rfl⟩
abbrev main_call8_v4 : Ref sig .tc := ⟨.hbm, 171, rfl⟩
abbrev main_call8_v5 : Ref sig .tc := ⟨.hbm, 172, rfl⟩
abbrev main_call8_c_1 : Ref sig .tc := ⟨.hbm, 173, rfl⟩
abbrev main_call8_c_2 : Ref sig .tc := ⟨.hbm, 174, rfl⟩
abbrev main_call8_v6 : Ref sig .tc := ⟨.hbm, 175, rfl⟩
abbrev main_call8_v7 : Ref sig .tc := ⟨.hbm, 176, rfl⟩
abbrev main_call8_v8 : Ref sig .tc := ⟨.hbm, 177, rfl⟩
abbrev main_call8_v9 : Ref sig .tc := ⟨.hbm, 178, rfl⟩
abbrev main_call8_v10 : Ref sig .tc := ⟨.hbm, 179, rfl⟩
abbrev main_call8_v11 : Ref sig .tc := ⟨.hbm, 180, rfl⟩
abbrev main_call8_c_3 : Ref sig .tc := ⟨.hbm, 181, rfl⟩
abbrev main_call8_v12 : Ref sig .tc := ⟨.hbm, 182, rfl⟩
abbrev main_call8_v13 : Ref sig .tc := ⟨.hbm, 183, rfl⟩
abbrev main_call8_cst : Ref sig .tc := ⟨.hbm, 184, rfl⟩
abbrev main_call8_v14 : Ref sig .tc := ⟨.hbm, 185, rfl⟩
abbrev main_v42 : Ref sig .tc := ⟨.hbm, 186, rfl⟩
abbrev main_v43 : Ref sig .tc := ⟨.hbm, 187, rfl⟩
abbrev main_v44 : Ref sig .tc := ⟨.hbm, 188, rfl⟩
abbrev main_cst_11 : Ref sig .tc := ⟨.hbm, 189, rfl⟩
abbrev main_v45 : Ref sig .tc := ⟨.hbm, 190, rfl⟩
abbrev main_v46 : Ref sig .tc := ⟨.hbm, 191, rfl⟩
abbrev main_cst_12 : Ref sig .tc := ⟨.hbm, 192, rfl⟩
abbrev main_v47 : Ref sig .tc := ⟨.hbm, 193, rfl⟩
abbrev main_v48 : Ref sig .tc := ⟨.hbm, 194, rfl⟩
abbrev main_v49 : Ref sig .tc := ⟨.hbm, 195, rfl⟩
abbrev main_v50 : Ref sig .tc := ⟨.hbm, 196, rfl⟩
abbrev main_v51 : Ref sig .tc := ⟨.hbm, 197, rfl⟩
abbrev main_c_13 : Ref sig .tc := ⟨.hbm, 198, rfl⟩
abbrev main_v52 : Ref sig .tc := ⟨.hbm, 199, rfl⟩
abbrev main_c_14 : Ref sig .tc := ⟨.hbm, 200, rfl⟩
abbrev main_v53 : Ref sig .tc := ⟨.hbm, 201, rfl⟩
abbrev main_v54 : Ref sig .tc := ⟨.hbm, 202, rfl⟩
abbrev main_c_15 : Ref sig .tc := ⟨.hbm, 203, rfl⟩
abbrev main_call9_v0 : Ref sig .tc := ⟨.hbm, 204, rfl⟩
abbrev main_call9_v1 : Ref sig .tc := ⟨.hbm, 205, rfl⟩
abbrev main_v55 : Ref sig .tc := ⟨.hbm, 206, rfl⟩
abbrev main_call10_cst : Ref sig .tc := ⟨.hbm, 207, rfl⟩
abbrev main_call10_v0 : Ref sig .tc := ⟨.hbm, 208, rfl⟩
abbrev main_call10_cst_0 : Ref sig .tc := ⟨.hbm, 209, rfl⟩
abbrev main_call10_v1 : Ref sig .tc := ⟨.hbm, 210, rfl⟩
abbrev main_call10_v2 : Ref sig .tc := ⟨.hbm, 211, rfl⟩
abbrev main_call10_v3 : Ref sig .tc := ⟨.hbm, 212, rfl⟩
abbrev main_call10_v4 : Ref sig .tc := ⟨.hbm, 213, rfl⟩
abbrev main_call10_v5 : Ref sig .tc := ⟨.hbm, 214, rfl⟩
abbrev main_call10_v6 : Ref sig .tc := ⟨.hbm, 215, rfl⟩
abbrev main_call10_cst_1 : Ref sig .tc := ⟨.hbm, 216, rfl⟩
abbrev main_call10_v7 : Ref sig .tc := ⟨.hbm, 217, rfl⟩
abbrev main_call10_v8 : Ref sig .tc := ⟨.hbm, 218, rfl⟩
abbrev main_call10_v9 : Ref sig .tc := ⟨.hbm, 219, rfl⟩
abbrev main_call10_v10 : Ref sig .tc := ⟨.hbm, 220, rfl⟩
abbrev main_v56 : Ref sig .tc := ⟨.hbm, 221, rfl⟩
abbrev main_v57 : Ref sig .tc := ⟨.hbm, 222, rfl⟩
abbrev main_call11_c : Ref sig .tc := ⟨.hbm, 223, rfl⟩
abbrev main_call11_v0 : Ref sig .tc := ⟨.hbm, 224, rfl⟩
abbrev main_call11_v1 : Ref sig .tc := ⟨.hbm, 225, rfl⟩
abbrev main_call11_c_0 : Ref sig .tc := ⟨.hbm, 226, rfl⟩
abbrev main_call11_v2 : Ref sig .tc := ⟨.hbm, 227, rfl⟩
abbrev main_call11_v3 : Ref sig .tc := ⟨.hbm, 228, rfl⟩
abbrev main_call11_v4 : Ref sig .tc := ⟨.hbm, 229, rfl⟩
abbrev main_call11_v5 : Ref sig .tc := ⟨.hbm, 230, rfl⟩
abbrev main_call11_c_1 : Ref sig .tc := ⟨.hbm, 231, rfl⟩
abbrev main_call11_c_2 : Ref sig .tc := ⟨.hbm, 232, rfl⟩
abbrev main_call11_v6 : Ref sig .tc := ⟨.hbm, 233, rfl⟩
abbrev main_call11_v7 : Ref sig .tc := ⟨.hbm, 234, rfl⟩
abbrev main_call11_v8 : Ref sig .tc := ⟨.hbm, 235, rfl⟩
abbrev main_call11_v9 : Ref sig .tc := ⟨.hbm, 236, rfl⟩
abbrev main_call11_v10 : Ref sig .tc := ⟨.hbm, 237, rfl⟩
abbrev main_call11_v11 : Ref sig .tc := ⟨.hbm, 238, rfl⟩
abbrev main_call11_c_3 : Ref sig .tc := ⟨.hbm, 239, rfl⟩
abbrev main_call11_v12 : Ref sig .tc := ⟨.hbm, 240, rfl⟩
abbrev main_call11_v13 : Ref sig .tc := ⟨.hbm, 241, rfl⟩
abbrev main_call11_cst : Ref sig .tc := ⟨.hbm, 242, rfl⟩
abbrev main_call11_v14 : Ref sig .tc := ⟨.hbm, 243, rfl⟩
abbrev main_v58 : Ref sig .tc := ⟨.hbm, 244, rfl⟩
abbrev main_v59 : Ref sig .tc := ⟨.hbm, 245, rfl⟩
abbrev main_v60 : Ref sig .tc := ⟨.hbm, 246, rfl⟩
abbrev main_cst_16 : Ref sig .tc := ⟨.hbm, 247, rfl⟩
abbrev main_v61 : Ref sig .tc := ⟨.hbm, 248, rfl⟩
abbrev main_v62 : Ref sig .tc := ⟨.hbm, 249, rfl⟩
abbrev main_cst_17 : Ref sig .tc := ⟨.hbm, 250, rfl⟩
abbrev main_v63 : Ref sig .tc := ⟨.hbm, 251, rfl⟩
abbrev main_v64 : Ref sig .tc := ⟨.hbm, 252, rfl⟩
abbrev main_v65 : Ref sig .tc := ⟨.hbm, 253, rfl⟩
abbrev main_v66 : Ref sig .tc := ⟨.hbm, 254, rfl⟩
abbrev main_v67 : Ref sig .tc := ⟨.hbm, 255, rfl⟩
abbrev main_c_18 : Ref sig .tc := ⟨.hbm, 256, rfl⟩
abbrev main_v68 : Ref sig .tc := ⟨.hbm, 257, rfl⟩
abbrev main_c_19 : Ref sig .tc := ⟨.hbm, 258, rfl⟩
abbrev main_v69 : Ref sig .tc := ⟨.hbm, 259, rfl⟩
abbrev main_v70 : Ref sig .tc := ⟨.hbm, 260, rfl⟩
abbrev main_c_20 : Ref sig .tc := ⟨.hbm, 261, rfl⟩
abbrev main_call12_v0 : Ref sig .tc := ⟨.hbm, 262, rfl⟩
abbrev main_call12_v1 : Ref sig .tc := ⟨.hbm, 263, rfl⟩
abbrev main_v71 : Ref sig .tc := ⟨.hbm, 264, rfl⟩
abbrev main_call13_cst : Ref sig .tc := ⟨.hbm, 265, rfl⟩
abbrev main_call13_v0 : Ref sig .tc := ⟨.hbm, 266, rfl⟩
abbrev main_call13_cst_0 : Ref sig .tc := ⟨.hbm, 267, rfl⟩
abbrev main_call13_v1 : Ref sig .tc := ⟨.hbm, 268, rfl⟩
abbrev main_call13_v2 : Ref sig .tc := ⟨.hbm, 269, rfl⟩
abbrev main_call13_v3 : Ref sig .tc := ⟨.hbm, 270, rfl⟩
abbrev main_call13_v4 : Ref sig .tc := ⟨.hbm, 271, rfl⟩
abbrev main_call13_v5 : Ref sig .tc := ⟨.hbm, 272, rfl⟩
abbrev main_call13_v6 : Ref sig .tc := ⟨.hbm, 273, rfl⟩
abbrev main_call13_cst_1 : Ref sig .tc := ⟨.hbm, 274, rfl⟩
abbrev main_call13_v7 : Ref sig .tc := ⟨.hbm, 275, rfl⟩
abbrev main_call13_v8 : Ref sig .tc := ⟨.hbm, 276, rfl⟩
abbrev main_call13_v9 : Ref sig .tc := ⟨.hbm, 277, rfl⟩
abbrev main_call13_v10 : Ref sig .tc := ⟨.hbm, 278, rfl⟩
abbrev main_v72 : Ref sig .tc := ⟨.hbm, 279, rfl⟩
abbrev main_v73 : Ref sig .tc := ⟨.hbm, 280, rfl⟩
abbrev main_call14_c : Ref sig .tc := ⟨.hbm, 281, rfl⟩
abbrev main_call14_v0 : Ref sig .tc := ⟨.hbm, 282, rfl⟩
abbrev main_call14_v1 : Ref sig .tc := ⟨.hbm, 283, rfl⟩
abbrev main_call14_c_0 : Ref sig .tc := ⟨.hbm, 284, rfl⟩
abbrev main_call14_v2 : Ref sig .tc := ⟨.hbm, 285, rfl⟩
abbrev main_call14_v3 : Ref sig .tc := ⟨.hbm, 286, rfl⟩
abbrev main_call14_v4 : Ref sig .tc := ⟨.hbm, 287, rfl⟩
abbrev main_call14_c_1 : Ref sig .tc := ⟨.hbm, 288, rfl⟩
abbrev main_call14_c_2 : Ref sig .tc := ⟨.hbm, 289, rfl⟩
abbrev main_call14_v5 : Ref sig .tc := ⟨.hbm, 290, rfl⟩
abbrev main_call14_v6 : Ref sig .tc := ⟨.hbm, 291, rfl⟩
abbrev main_call14_v7 : Ref sig .tc := ⟨.hbm, 292, rfl⟩
abbrev main_call14_v8 : Ref sig .tc := ⟨.hbm, 293, rfl⟩
abbrev main_call14_v9 : Ref sig .tc := ⟨.hbm, 294, rfl⟩
abbrev main_call14_c_3 : Ref sig .tc := ⟨.hbm, 295, rfl⟩
abbrev main_call14_v10 : Ref sig .tc := ⟨.hbm, 296, rfl⟩
abbrev main_call14_v11 : Ref sig .tc := ⟨.hbm, 297, rfl⟩
abbrev main_call14_v12 : Ref sig .tc := ⟨.hbm, 298, rfl⟩
abbrev main_call14_cst : Ref sig .tc := ⟨.hbm, 299, rfl⟩
abbrev main_call14_v13 : Ref sig .tc := ⟨.hbm, 300, rfl⟩
abbrev main_v74 : Ref sig .tc := ⟨.hbm, 301, rfl⟩
abbrev main_v75 : Ref sig .tc := ⟨.hbm, 302, rfl⟩
abbrev main_v76 : Ref sig .tc := ⟨.hbm, 303, rfl⟩
abbrev main_cst_21 : Ref sig .tc := ⟨.hbm, 304, rfl⟩
abbrev main_v77 : Ref sig .tc := ⟨.hbm, 305, rfl⟩
abbrev main_v78 : Ref sig .tc := ⟨.hbm, 306, rfl⟩
abbrev main_cst_22 : Ref sig .tc := ⟨.hbm, 307, rfl⟩
abbrev main_v79 : Ref sig .tc := ⟨.hbm, 308, rfl⟩
abbrev main_v80 : Ref sig .tc := ⟨.hbm, 309, rfl⟩

abbrev nD : Nat := 1
abbrev τ : Topo := Topo.v7x

variable {F : FTy → Type} [FloatOps F]

class Facts₀ : Prop where
  shapeCasts_S1x256x256x256_S256x256x256 : S1x256x256x256.ShapeCasts S256x256x256
  bcast_S_S256x256x256 : S_.BroadcastsInDim S256x256x256 (![] : Fin 0 → Fin S256x256x256.rank)
  shapeCasts_S256x256x256_S16x16x16x16x16x16 : S256x256x256.ShapeCasts S16x16x16x16x16x16
  transposes_S16x16x16x16x16x16_S16x16x16x16x16x16_0_2_4_1_3_5 : S16x16x16x16x16x16.Transposes [0, 2, 4, 1, 3, 5] S16x16x16x16x16x16
  shapeCasts_S16x16x16x16x16x16_S4096x4096 : S16x16x16x16x16x16.ShapeCasts S4096x4096
  reducesTo_S4096x2x16x16x16_S4096x16x16x16_d1 : S4096x2x16x16x16.ReducesTo [1] S4096x16x16x16
  h_S_ : 0 < S_.numel
  bcast_S_S4096x16x16x16 : S_.BroadcastsInDim S4096x16x16x16 (![] : Fin 0 → Fin S4096x16x16x16.rank)
  bcast_S4096x16x16x16_S4096x1x16x16x16_0_2_3_4 : S4096x16x16x16.BroadcastsInDim S4096x1x16x16x16 (![0, 2, 3, 4] : Fin 4 → Fin S4096x1x16x16x16.rank)
  bcast_S4096x1x16x16x16_S4096x2x16x16x16_0_1_2_3_4 : S4096x1x16x16x16.BroadcastsInDim S4096x2x16x16x16 (![0, 1, 2, 3, 4] : Fin 5 → Fin S4096x2x16x16x16.rank)
  shapeCasts_S4096x2x16x16x16_S4096x2x4096 : S4096x2x16x16x16.ShapeCasts S4096x2x4096
  bcast_S4096x4096_S4096x1x4096_0_2 : S4096x4096.BroadcastsInDim S4096x1x4096 (![0, 2] : Fin 2 → Fin S4096x1x4096.rank)
  bcast_S_S4096x1x4096 : S_.BroadcastsInDim S4096x1x4096 (![] : Fin 0 → Fin S4096x1x4096.rank)
  shapeCasts_S4096x1x4096_S4096x1x4096x1 : S4096x1x4096.ShapeCasts S4096x1x4096x1
  bcast_S_S4096x1x4096x1 : S_.BroadcastsInDim S4096x1x4096x1 (![] : Fin 0 → Fin S4096x1x4096x1.rank)
  bcast_S1_S1x1x1x1_3 : S1.BroadcastsInDim S1x1x1x1 (![3] : Fin 1 → Fin S1x1x1x1.rank)
  bcast_S1x1x1x1_S4096x1x4096x1_0_1_2_3 : S1x1x1x1.BroadcastsInDim S4096x1x4096x1 (![0, 1, 2, 3] : Fin 4 → Fin S4096x1x4096x1.rank)
  reducesTo_S4096x1x4096x1_S4096x1x4096_d3 : S4096x1x4096x1.ReducesTo [3] S4096x1x4096
  shapeCasts_S4096x1x4096_S4096x4096 : S4096x1x4096.ShapeCasts S4096x4096
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  shapeCasts_S256x256x256_S8x32x8x32x8x32 : S256x256x256.ShapeCasts S8x32x8x32x8x32
  transposes_S8x32x8x32x8x32_S8x8x8x32x32x32_0_2_4_1_3_5 : S8x32x8x32x8x32.Transposes [0, 2, 4, 1, 3, 5] S8x8x8x32x32x32
  shapeCasts_S8x8x8x32x32x32_S512x32768 : S8x8x8x32x32x32.ShapeCasts S512x32768
  reducesTo_S512x32768_S512_d1 : S512x32768.ReducesTo [1] S512
  bcast_S_S512 : S_.BroadcastsInDim S512 (![] : Fin 0 → Fin S512.rank)
  reducesTo_S512x3_S512_d1 : S512x3.ReducesTo [1] S512
  bcast_S512_S512x1_0 : S512.BroadcastsInDim S512x1 (![0] : Fin 1 → Fin S512x1.rank)
  bcast_S512x1_S512x3_0_1 : S512x1.BroadcastsInDim S512x3 (![0, 1] : Fin 2 → Fin S512x3.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  shapeCasts_S256x256x256_S4x64x4x64x4x64 : S256x256x256.ShapeCasts S4x64x4x64x4x64
  transposes_S4x64x4x64x4x64_S4x4x4x64x64x64_0_2_4_1_3_5 : S4x64x4x64x4x64.Transposes [0, 2, 4, 1, 3, 5] S4x4x4x64x64x64
  shapeCasts_S4x4x4x64x64x64_S64x262144 : S4x4x4x64x64x64.ShapeCasts S64x262144
  reducesTo_S64x262144_S64_d1 : S64x262144.ReducesTo [1] S64
  bcast_S_S64 : S_.BroadcastsInDim S64 (![] : Fin 0 → Fin S64.rank)
  reducesTo_S64x3_S64_d1 : S64x3.ReducesTo [1] S64
  bcast_S64_S64x1_0 : S64.BroadcastsInDim S64x1 (![0] : Fin 1 → Fin S64x1.rank)
  bcast_S64x1_S64x3_0_1 : S64x1.BroadcastsInDim S64x3 (![0, 1] : Fin 2 → Fin S64x3.rank)
  bcast_S_S64x1 : S_.BroadcastsInDim S64x1 (![] : Fin 0 → Fin S64x1.rank)
  shapeCasts_S64x1_S64x1x1 : S64x1.ShapeCasts S64x1x1
  bcast_S_S64x1x1 : S_.BroadcastsInDim S64x1x1 (![] : Fin 0 → Fin S64x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  shapeCasts_S64x1_S64 : S64x1.ShapeCasts S64
  reducesTo_S64_S_d0 : S64.ReducesTo [0] S_
  shapeCasts_S256x256x256_S2x128x2x128x2x128 : S256x256x256.ShapeCasts S2x128x2x128x2x128
  transposes_S2x128x2x128x2x128_S2x2x2x128x128x128_0_2_4_1_3_5 : S2x128x2x128x2x128.Transposes [0, 2, 4, 1, 3, 5] S2x2x2x128x128x128
  shapeCasts_S2x2x2x128x128x128_S8x2097152 : S2x2x2x128x128x128.ShapeCasts S8x2097152
  reducesTo_S8x2097152_S8_d1 : S8x2097152.ReducesTo [1] S8
  bcast_S_S8 : S_.BroadcastsInDim S8 (![] : Fin 0 → Fin S8.rank)
  reducesTo_S8x3_S8_d1 : S8x3.ReducesTo [1] S8
  bcast_S8_S8x1_0 : S8.BroadcastsInDim S8x1 (![0] : Fin 1 → Fin S8x1.rank)
  bcast_S8x1_S8x3_0_1 : S8x1.BroadcastsInDim S8x3 (![0, 1] : Fin 2 → Fin S8x3.rank)
  bcast_S_S8x1 : S_.BroadcastsInDim S8x1 (![] : Fin 0 → Fin S8x1.rank)
  shapeCasts_S8x1_S8x1x1 : S8x1.ShapeCasts S8x1x1
  bcast_S_S8x1x1 : S_.BroadcastsInDim S8x1x1 (![] : Fin 0 → Fin S8x1x1.rank)
  bcast_S1x1x1_S8x1x1_0_1_2 : S1x1x1.BroadcastsInDim S8x1x1 (![0, 1, 2] : Fin 3 → Fin S8x1x1.rank)
  reducesTo_S8x1x1_S8x1_d2 : S8x1x1.ReducesTo [2] S8x1
  shapeCasts_S8x1_S8 : S8x1.ShapeCasts S8
  reducesTo_S8_S_d0 : S8.ReducesTo [0] S_
  shapeCasts_S256x256x256_S1x256x1x256x1x256 : S256x256x256.ShapeCasts S1x256x1x256x1x256
  transposes_S1x256x1x256x1x256_S1x1x1x256x256x256_0_2_4_1_3_5 : S1x256x1x256x1x256.Transposes [0, 2, 4, 1, 3, 5] S1x1x1x256x256x256
  shapeCasts_S1x1x1x256x256x256_S1x16777216 : S1x1x1x256x256x256.ShapeCasts S1x16777216
  reducesTo_S1x16777216_S1_d1 : S1x16777216.ReducesTo [1] S1
  bcast_S_S1 : S_.BroadcastsInDim S1 (![] : Fin 0 → Fin S1.rank)
  reducesTo_S1x3_S1_d1 : S1x3.ReducesTo [1] S1
  bcast_S1_S1x1_0 : S1.BroadcastsInDim S1x1 (![0] : Fin 1 → Fin S1x1.rank)
  bcast_S1x1_S1x3_0_1 : S1x1.BroadcastsInDim S1x3 (![0, 1] : Fin 2 → Fin S1x3.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  shapeCasts_S1x1_S1 : S1x1.ShapeCasts S1
  reducesTo_S1_S_d0 : S1.ReducesTo [0] S_
  gather_S4096x2x4096_S4096x1x4096x1_S4096x1x4096_n_1_02_02_1_3_111_wf : GatherDims.WF S4096x2x4096 S4096x1x4096x1 S4096x1x4096 [] [1] [0, 2] [1] [0, 2] 3 ![1, 1, 1]
  gather_S512x3_S512x1x1_S512x1_n_1_0_0_1_2_11_wf : GatherDims.WF S512x3 S512x1x1 S512x1 [] [1] [0] [1] [0] 2 ![1, 1]
  gather_S64x3_S64x1x1_S64x1_n_1_0_0_1_2_11_wf : GatherDims.WF S64x3 S64x1x1 S64x1 [] [1] [0] [1] [0] 2 ![1, 1]
  gather_S8x3_S8x1x1_S8x1_n_1_0_0_1_2_11_wf : GatherDims.WF S8x3 S8x1x1 S8x1 [] [1] [0] [1] [0] 2 ![1, 1]
  gather_S1x3_S1x1_S1x1_0_1_n_n_1_1_11_wf : GatherDims.WF S1x3 S1x1 S1x1 [0] [1] [] [1] [] 1 ![1, 1]

variable [Facts₀]

def gather_S4096x2x4096_S4096x1x4096x1_S4096x1x4096_n_1_02_02_1_3_111 : GatherDims S4096x2x4096 S4096x1x4096x1 S4096x1x4096 where
  offsetDims := []
  collapsedSliceDims := [1]
  operandBatchingDims := [0, 2]
  startIndicesBatchingDims := [0, 2]
  startIndexMap := [1]
  indexVectorDim := 3
  sliceSizes := ![1, 1, 1]
  wf := gather_S4096x2x4096_S4096x1x4096x1_S4096x1x4096_n_1_02_02_1_3_111_wf
def gather_S512x3_S512x1x1_S512x1_n_1_0_0_1_2_11 : GatherDims S512x3 S512x1x1 S512x1 where
  offsetDims := []
  collapsedSliceDims := [1]
  operandBatchingDims := [0]
  startIndicesBatchingDims := [0]
  startIndexMap := [1]
  indexVectorDim := 2
  sliceSizes := ![1, 1]
  wf := gather_S512x3_S512x1x1_S512x1_n_1_0_0_1_2_11_wf
def gather_S64x3_S64x1x1_S64x1_n_1_0_0_1_2_11 : GatherDims S64x3 S64x1x1 S64x1 where
  offsetDims := []
  collapsedSliceDims := [1]
  operandBatchingDims := [0]
  startIndicesBatchingDims := [0]
  startIndexMap := [1]
  indexVectorDim := 2
  sliceSizes := ![1, 1]
  wf := gather_S64x3_S64x1x1_S64x1_n_1_0_0_1_2_11_wf
def gather_S8x3_S8x1x1_S8x1_n_1_0_0_1_2_11 : GatherDims S8x3 S8x1x1 S8x1 where
  offsetDims := []
  collapsedSliceDims := [1]
  operandBatchingDims := [0]
  startIndicesBatchingDims := [0]
  startIndexMap := [1]
  indexVectorDim := 2
  sliceSizes := ![1, 1]
  wf := gather_S8x3_S8x1x1_S8x1_n_1_0_0_1_2_11_wf
def gather_S1x3_S1x1_S1x1_0_1_n_n_1_1_11 : GatherDims S1x3 S1x1 S1x1 where
  offsetDims := [0]
  collapsedSliceDims := [1]
  operandBatchingDims := []
  startIndicesBatchingDims := []
  startIndexMap := [1]
  indexVectorDim := 1
  sliceSizes := ![1, 1]
  wf := gather_S1x3_S1x1_S1x1_0_1_n_n_1_1_11_wf

class Facts : Prop extends Facts₀ where

variable [Facts]
-- ==== Proof.BFrame.lean ====
import proofs.«405900_j55972013802040_1_alg».proof.Proof.Gen.Kernel.Launch
import proofs.«405900_j55972013802040_1_alg».proof.Proof.Gen.Kernel.Skeleton
import proofs.«405900_j55972013802040_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.HF

open Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20]

noncomputable abbrev V0 (c : Dev nD) : Valuation τ sig (Elt F) := StableHlo.after (List.flatten [hostOps0, hostOps0_1, hostOps0_2]) (fun b => m (c, b))
noncomputable abbrev V (c : Dev nD) (b : Ref sig .tc) : Buf (Elt F) ((c : Thread nD τ).loc b) := V0 m c (Proc.devRef .tc b)

abbrev kept : List (Ref sig .tc) := [main_arg0, main_arg1, main_arg2, main_arg3, main_arg4, main_arg5, main_v7, main_v6, main_v8]

abbrev args : List (Ref sig .tc) := [main_arg0, main_arg1, main_arg2, main_arg3, main_arg4, main_arg5]

/-- The operation allocates nothing and writes no reference of `K`. -/
abbrev Ok (K : List (Ref sig .tc)) (op : HloOp τ sig (Elt F)) : Prop :=
  op.fresh = ∅ ∧ ∀ b ∈ K, Proc.devRef (τ := τ) .tc b ∉ op.writes

/-- Its one written buffer is a reference outside `K`. -/
theorem ok_one {K : List (Ref sig .tc)} {y : Ref sig .tc} {op : HloOp τ sig (Elt F)} (hf : op.fresh = ∅) (h : op.writes = {Proc.devRef .tc y}) (hy : y ∉ K) : Ok K op :=
  ⟨hf, fun b hb hw => hy (Proc.devRef_injective _ (Finset.mem_singleton.mp (h ▸ hw)) ▸ hb)⟩

theorem ops_ok : (∀ ops ∈ ([hostOps0, hostOps0_1, hostOps0_2] : List (List (HloOp τ sig (Elt F)))), ∀ op ∈ ops, Ok args op)
    ∧ ∀ ops ∈ (tailOps : List (List (HloOp τ sig (Elt F)))), ∀ op ∈ ops, Ok kept op := by
  constructor <;> repeat' first
    | refine List.forall_mem_cons.mpr ⟨?_, ?_⟩
    | exact ok_one rfl rfl (by decide)
    | exact fun _ h => nomatch h

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  have hs : (tailOps (F := F)).Forall fun ops => ops.Forall fun op => op.bufs ⊆ StableHlo.tcRefs τ sig :=
    ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub⟩
  exact fun ops ho op h => Pipeline.sub_ucRefs op (List.forall_iff_forall_mem.mp (List.forall_iff_forall_mem.mp hs ops ho) op h)

theorem V_arg (c : Dev nD) (b : Ref sig .tc) (hb : b ∈ args) : V m c b = m ((c : Thread nD τ).loc b) := by
  show StableHlo.after _ _ _ = _
  rw [StableHlo.after_of_forall_not_mem _ _ fun op hop => ?_]
  obtain ⟨ops, hops, hop'⟩ := List.mem_flatten.mp hop
  exact (ops_ok.1 ops hops op hop').2 b hb

noncomputable def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

abbrev VO0_2 : View sig .tc .vmem S1x1 .f32 := (win0_2.stage (cfg0.slots ⟨0, by decide⟩ 2)).view

section Body

variable (c : Dev nD) (i : grid0.Coords) (arg1 : Memref sig .tc .vmem S128x2x4096 .f32) (harg1 : arg1.IsWhole) (arg2 : Memref sig .tc .vmem S128x4096 .i32) (harg2 : arg2.IsWhole) (arg3 : Memref sig .tc .vmem S1x1 .f32) (harg3 : arg3.IsWhole)
  (x0 : Vec F S128x2x4096 .f32) (x1 : Vec F S128x4096 .i32) (hc0 : cond0_0 i ⊕' ¬cond0_0 i) (xo2 : Vec F S1x1 .f32)

noncomputable def kernelRun0 :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__ce0_kernel i arg1 harg1 arg2 harg2 arg3 harg3) K } := by
  rcases hc0 with hc0 | hc0
  all_goals
    refine ⟨?_, fun E K => ?run⟩
    case run =>
      simp only [cc0__ce0_kernel_eq_skeleton]; unfold cc0__ce0_kernel_skel
      unfold owns
      iintro ⟨⟨%f0, %hf0, H0⟩, ⟨%f1, %hf1, H1⟩, ⟨%f2, %hf2, H2⟩, Hk⟩
      obtain rfl := harg1.eq_unread hf0; obtain rfl := harg2.eq_unread hf1; obtain rfl := harg3.eq_unread hf2
      sl_exec (disch := first | exact hc0)
      sl_step
      iapply Hk
      isplitl [H0]
      · iexists _; isplitr; · ipureintro; exact harg1.read_unread _
        iexact H0
      isplitl [H1]
      · iexists _; isplitr; · ipureintro; exact harg2.read_unread _
        iexact H1
      iexists _; iexact H2

theorem cover0_2 (y : S1x1.Idx) : ∃ pc ∈ (kernelRun0 c i arg1 harg1 arg2 harg2 arg3 harg3 x0 x1 hc0 xo2).1, y ∈ pc.1.set := by
  rcases hc0 with hc0 | hc0 <;> exact View.cover_of_tiledL _ S1x1.size (by sl_kernel_rfl) y

end Body

noncomputable def outOf (L : List (View.Piece (Elt F) S1x1 .f32)) : Vec F S1x1 .f32 :=
  VO0_2.read (Elt F) (VO0_2.writes (Elt F) VO0_2.junk L)

noncomputable abbrev runAt (c : Dev nD) (t : Fin cfg0.N) :=
  kernelRun0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (iblk m c 0 t) (iblk m c 1 t)

noncomputable def outsAt0 (c : Dev nD) : (n : ℕ) → n < cfg0.N → Vec F S1x1 .f32
  | 0, hn => outOf (runAt m c ⟨0, hn⟩ (.inl ((hcond0_0 _).mpr rfl)) (outOf [])).1
  | n + 1, hn => outOf (runAt m c ⟨n + 1, hn⟩ (.inr fun h => n.succ_ne_zero ((hcond0_0 _).mp h)) (outsAt0 c n (Nat.lt_of_succ_lt hn))).1

noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_in (c : Dev nD) (t : Fin cfg0.N) :
    (∀ d, (dats m 0 c).before 0 t d = iblk m c 0 t) ∧ ∀ d, (dats m 0 c).before 1 t d = iblk m c 1 t := by
  constructor <;> exact fun d => ((dats m 0 c).before_in_eq_fetched _ rfl (fun _ => rfl) (fun _ _ _ => rfl) (fun _ => rfl) t d).trans
    (by unfold Dat.fetched Dat.blockOf iblk; dsimp only [dats]; rfl)
theorem before0_2_B (c : Dev nD) (n : ℕ) (hn : n + 1 < cfg0.N) (d) :
    (dats m 0 c).before 2 ⟨n + 1, hn⟩ d = outsAt0 m c n (Nat.lt_of_succ_lt hn) := by
  have hN : n + 1 < 32 := lt_of_lt_of_eq hn (show cfg0.N = 32 from N_0)
  rw [Dat.before_out_kept _ 2 rfl ⟨n + 1, hn⟩ n.succ_ne_zero (Bool.eq_false_iff.mpr fun h => by have := (flush0_2 _).mp h; dsimp only at this; omega)
    (fun _ => rfl) (fun _ _ => rfl)]
  rfl

theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t))) := by
  simp only [(before0_in m c t).1, (before0_in m c t).2]
  rw [show (dats m 0 c).Φ t.succ = (dats m 0 c).Φ t.castSucc from rfl,
    show (dats m 0 c).owesAt () t.succ = (dats m 0 c).owesAt () t.castSucc from rfl,
    after0_0, after0_1, after0_2]
  obtain ⟨n, hn⟩ := t
  cases n
  all_goals
    simp only [before0_2_B, outsAt0, outOf]
    iintro ⟨HΦ, Ho, ⟨%d0, H0⟩, ⟨%d1, H1⟩, ⟨%d2, H2⟩⟩
    first
    | iapply ((runAt m c _ (.inl ((hcond0_0 _).mpr rfl)) _).2 Set.univ _)
    | iapply ((runAt m c _ (.inr fun h => Nat.succ_ne_zero _ ((hcond0_0 _).mp h)) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_2 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := fun ops ho op h => (ops_ok.2 ops ho op h).1)
    (hkeep := fun ops ho op h w => (ops_ok.2 ops ho op h).2 _ (by fin_cases w <;> decide))
    (hmain := Pipeline.hmain_around cfgs 0 defs₀ Variants.none m main [hostOps0, hostOps0_1, hostOps0_2] tailOps
      ⟨hostOps0_sub, hostOps0_1_sub, hostOps0_2_sub⟩
      (List.forall_iff_forall_mem.mpr fun ops ho => List.forall_iff_forall_mem.mpr fun op h => (ops_ok.1 ops ho op h).1) main_chain) (hA := A_eq m) (hΦ := fun _ _ => rfl)

theorem args_facts : ∀ b ∈ args, b ∈ kept ∧ b.isScoped = false ∧ ∀ w, Pipeline.arrRef spec0 w ≠ b := by decide

theorem tail_arg (c : Dev nD) (b : Ref sig .tc) (hb : b ∈ args) :
    Pipeline.afterTail₀ cfgs (dats m) 0 (V0 m) tailOps c b = m ((c : Thread nD τ).loc b) := by
  unfold Pipeline.afterTail₀
  rw [StableHlo.after_of_forall_not_mem _ _ fun op hop => ?_, Pipeline.withArrays_of_ne _ c (V0 m c) _ b (args_facts b hb).2.2]
  · exact V_arg m c b hb
  · obtain ⟨ops, hops, hop'⟩ := List.mem_flatten.mp hop
    exact (ops_ok.2 ops hops op hop').2 b (args_facts b hb).1

theorem arg_rest (b : Ref sig .tc) (hb : b ∈ args) : b ∈ Pipeline.restRefs sig (cfgs 0).spec :=
  Pipeline.mem_restRefs_of _ (args_facts b hb).2.1 (args_facts b hb).2.2

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have key : ∀ b ∈ args, r.2.mem ((c.tc : Thread nD τ).loc b) = m ((c.tc : Thread nD τ).loc b) :=
      fun b hb => ((h c).2 b (arg_rest b hb)).trans (tail_arg m c b hb)
    ⟨key main_arg0 (by decide), key main_arg1 (by decide), key main_arg2 (by decide), key main_arg3 (by decide),
      key main_arg4 (by decide), key main_arg5 (by decide)⟩) (run_main m ρ)

theorem hz2 : (![0, 0] : Fin 2 → ℕ) = fun _ => 0 := by funext a; fin_cases a <;> rfl

abbrev ld0 (X : Vec F S128x2x4096 .f32) : Vec F S128x1x4096 .f32 :=
  View.ld X (Rect.unit (s := S128x2x4096) ![0, 0, 0] S128x1x4096.size inb_S128x2x4096_S128x1x4096_0_0_0)
abbrev ld1 (X : Vec F S128x2x4096 .f32) : Vec F S128x1x4096 .f32 :=
  View.ld X (Rect.unit (s := S128x2x4096) ![0, 1, 0] S128x1x4096.size inb_S128x2x4096_S128x1x4096_0_1_0)

theorem outsAt0_zero (c : Dev nD) (h : 0 < cfg0.N) :
    outsAt0 m c 0 h = k0_pay2 (ld0 (iblk m c 0 ⟨0, h⟩)) (ld1 (iblk m c 0 ⟨0, h⟩)) (iblk m c 1 ⟨0, h⟩) (k0_pay1 (F := F)) := by
  unfold outsAt0 outOf
  rw [View.read_writes_eq_canon _ _ _ (cover0_2 _ _ _ _ _ _ _ _ _ _ _ _)]
  unfold kernelRun0
  dsimp only
  sl_unfold_words
  rw [View.canon_cons_unit_zero (S := S1x1) hz2]
  simp only [View.readAt_eq_ld, Memref.IsWhole.read_unread]
  rw [View.readCov_unit_zero _ hz2, View.ld_unit_zero (S := S128x4096) hz2]

theorem outsAt0_succ (c : Dev nD) (n : ℕ) (h : n + 1 < cfg0.N) :
    outsAt0 m c (n + 1) h = k0_pay2 (ld0 (iblk m c 0 ⟨n + 1, h⟩)) (ld1 (iblk m c 0 ⟨n + 1, h⟩)) (iblk m c 1 ⟨n + 1, h⟩) (outsAt0 m c n (Nat.lt_of_succ_lt h)) := by
  rw [outsAt0, outOf, View.read_writes_eq_canon _ _ _ (cover0_2 _ _ _ _ _ _ _ _ _ _ _ _)]
  unfold kernelRun0
  dsimp only
  sl_unfold_words
  rw [View.canon_unit_zero (S := S1x1) hz2]
  simp only [View.readAt_eq_ld, Memref.IsWhole.read_unread]
  rw [View.ld_unit_zero (S := S1x1) hz2, View.ld_unit_zero (S := S128x4096) hz2]

end Cert.Kernel.HF

end
-- ==== Proof.KFrame.lean ====
import proofs.«405900_j55972013802040_1_alg».proof.Proof.Gen.KernelIdeal.Launch
import proofs.«405900_j55972013802040_1_alg».proof.Proof.Gen.KernelIdeal.Skeleton
import proofs.«405900_j55972013802040_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.HF

open Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20]

noncomputable abbrev V0 (c : Dev nD) : Valuation τ sig (Elt F) := StableHlo.after (List.flatten [hostOps0, hostOps0_1, hostOps0_2]) (fun b => m (c, b))
noncomputable abbrev V (c : Dev nD) (b : Ref sig .tc) : Buf (Elt F) ((c : Thread nD τ).loc b) := V0 m c (Proc.devRef .tc b)

abbrev kept : List (Ref sig .tc) := [main_arg0, main_arg1, main_arg2, main_arg3, main_arg4, main_arg5, main_v7, main_v6, main_v8]

abbrev args : List (Ref sig .tc) := [main_arg0, main_arg1, main_arg2, main_arg3, main_arg4, main_arg5]

/-- The operation allocates nothing and writes no reference of `K`. -/
abbrev Ok (K : List (Ref sig .tc)) (op : HloOp τ sig (Elt F)) : Prop :=
  op.fresh = ∅ ∧ ∀ b ∈ K, Proc.devRef (τ := τ) .tc b ∉ op.writes

/-- Its one written buffer is a reference outside `K`. -/
theorem ok_one {K : List (Ref sig .tc)} {y : Ref sig .tc} {op : HloOp τ sig (Elt F)} (hf : op.fresh = ∅) (h : op.writes = {Proc.devRef .tc y}) (hy : y ∉ K) : Ok K op :=
  ⟨hf, fun b hb hw => hy (Proc.devRef_injective _ (Finset.mem_singleton.mp (h ▸ hw)) ▸ hb)⟩

theorem ops_ok : (∀ ops ∈ ([hostOps0, hostOps0_1, hostOps0_2] : List (List (HloOp τ sig (Elt F)))), ∀ op ∈ ops, Ok args op)
    ∧ ∀ ops ∈ (tailOps : List (List (HloOp τ sig (Elt F)))), ∀ op ∈ ops, Ok kept op := by
  constructor <;> repeat' first
    | refine List.forall_mem_cons.mpr ⟨?_, ?_⟩
    | exact ok_one rfl rfl (by decide)
    | exact fun _ h => nomatch h

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  have hs : (tailOps (F := F)).Forall fun ops => ops.Forall fun op => op.bufs ⊆ StableHlo.tcRefs τ sig :=
    ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub⟩
  exact fun ops ho op h => Pipeline.sub_ucRefs op (List.forall_iff_forall_mem.mp (List.forall_iff_forall_mem.mp hs ops ho) op h)

theorem V_arg (c : Dev nD) (b : Ref sig .tc) (hb : b ∈ args) : V m c b = m ((c : Thread nD τ).loc b) := by
  show StableHlo.after _ _ _ = _
  rw [StableHlo.after_of_forall_not_mem _ _ fun op hop => ?_]
  obtain ⟨ops, hops, hop'⟩ := List.mem_flatten.mp hop
  exact (ops_ok.1 ops hops op hop').2 b hb

noncomputable def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

abbrev VO0_2 : View sig .tc .vmem S1x1 .f32 := (win0_2.stage (cfg0.slots ⟨0, by decide⟩ 2)).view

section Body

variable (c : Dev nD) (i : grid0.Coords) (arg1 : Memref sig .tc .vmem S128x2x4096 .f32) (harg1 : arg1.IsWhole) (arg2 : Memref sig .tc .vmem S128x4096 .i32) (harg2 : arg2.IsWhole) (arg3 : Memref sig .tc .vmem S1x1 .f32) (harg3 : arg3.IsWhole)
  (x0 : Vec F S128x2x4096 .f32) (x1 : Vec F S128x4096 .i32) (hc0 : cond0_0 i ⊕' ¬cond0_0 i) (xo2 : Vec F S1x1 .f32)

noncomputable def kernelRun0 :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__ce0_kernel i arg1 harg1 arg2 harg2 arg3 harg3) K } := by
  rcases hc0 with hc0 | hc0
  all_goals
    refine ⟨?_, fun E K => ?run⟩
    case run =>
      simp only [cc0__ce0_kernel_eq_skeleton]; unfold cc0__ce0_kernel_skel
      unfold owns
      iintro ⟨⟨%f0, %hf0, H0⟩, ⟨%f1, %hf1, H1⟩, ⟨%f2, %hf2, H2⟩, Hk⟩
      obtain rfl := harg1.eq_unread hf0; obtain rfl := harg2.eq_unread hf1; obtain rfl := harg3.eq_unread hf2
      sl_exec (disch := first | exact hc0)
      sl_step
      iapply Hk
      isplitl [H0]
      · iexists _; isplitr; · ipureintro; exact harg1.read_unread _
        iexact H0
      isplitl [H1]
      · iexists _; isplitr; · ipureintro; exact harg2.read_unread _
        iexact H1
      iexists _; iexact H2

theorem cover0_2 (y : S1x1.Idx) : ∃ pc ∈ (kernelRun0 c i arg1 harg1 arg2 harg2 arg3 harg3 x0 x1 hc0 xo2).1, y ∈ pc.1.set := by
  rcases hc0 with hc0 | hc0 <;> exact View.cover_of_tiledL _ S1x1.size (by sl_kernel_rfl) y

end Body

noncomputable def outOf (L : List (View.Piece (Elt F) S1x1 .f32)) : Vec F S1x1 .f32 :=
  VO0_2.read (Elt F) (VO0_2.writes (Elt F) VO0_2.junk L)

noncomputable abbrev runAt (c : Dev nD) (t : Fin cfg0.N) :=
  kernelRun0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (iblk m c 0 t) (iblk m c 1 t)

noncomputable def outsAt0 (c : Dev nD) : (n : ℕ) → n < cfg0.N → Vec F S1x1 .f32
  | 0, hn => outOf (runAt m c ⟨0, hn⟩ (.inl ((hcond0_0 _).mpr rfl)) (outOf [])).1
  | n + 1, hn => outOf (runAt m c ⟨n + 1, hn⟩ (.inr fun h => n.succ_ne_zero ((hcond0_0 _).mp h)) (outsAt0 c n (Nat.lt_of_succ_lt hn))).1

noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_in (c : Dev nD) (t : Fin cfg0.N) :
    (∀ d, (dats m 0 c).before 0 t d = iblk m c 0 t) ∧ ∀ d, (dats m 0 c).before 1 t d = iblk m c 1 t := by
  constructor <;> exact fun d => ((dats m 0 c).before_in_eq_fetched _ rfl (fun _ => rfl) (fun _ _ _ => rfl) (fun _ => rfl) t d).trans
    (by unfold Dat.fetched Dat.blockOf iblk; dsimp only [dats]; rfl)
theorem before0_2_B (c : Dev nD) (n : ℕ) (hn : n + 1 < cfg0.N) (d) :
    (dats m 0 c).before 2 ⟨n + 1, hn⟩ d = outsAt0 m c n (Nat.lt_of_succ_lt hn) := by
  have hN : n + 1 < 32 := lt_of_lt_of_eq hn (show cfg0.N = 32 from N_0)
  rw [Dat.before_out_kept _ 2 rfl ⟨n + 1, hn⟩ n.succ_ne_zero (Bool.eq_false_iff.mpr fun h => by have := (flush0_2 _).mp h; dsimp only at this; omega)
    (fun _ => rfl) (fun _ _ => rfl)]
  rfl

theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t))) := by
  simp only [(before0_in m c t).1, (before0_in m c t).2]
  rw [show (dats m 0 c).Φ t.succ = (dats m 0 c).Φ t.castSucc from rfl,
    show (dats m 0 c).owesAt () t.succ = (dats m 0 c).owesAt () t.castSucc from rfl,
    after0_0, after0_1, after0_2]
  obtain ⟨n, hn⟩ := t
  cases n
  all_goals
    simp only [before0_2_B, outsAt0, outOf]
    iintro ⟨HΦ, Ho, ⟨%d0, H0⟩, ⟨%d1, H1⟩, ⟨%d2, H2⟩⟩
    first
    | iapply ((runAt m c _ (.inl ((hcond0_0 _).mpr rfl)) _).2 Set.univ _)
    | iapply ((runAt m c _ (.inr fun h => Nat.succ_ne_zero _ ((hcond0_0 _).mp h)) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_2 c _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := fun ops ho op h => (ops_ok.2 ops ho op h).1)
    (hkeep := fun ops ho op h w => (ops_ok.2 ops ho op h).2 _ (by fin_cases w <;> decide))
    (hmain := Pipeline.hmain_around cfgs 0 defs₀ Variants.none m main [hostOps0, hostOps0_1, hostOps0_2] tailOps
      ⟨hostOps0_sub, hostOps0_1_sub, hostOps0_2_sub⟩
      (List.forall_iff_forall_mem.mpr fun ops ho => List.forall_iff_forall_mem.mpr fun op h => (ops_ok.1 ops ho op h).1) main_chain) (hA := A_eq m) (hΦ := fun _ _ => rfl)

theorem args_facts : ∀ b ∈ args, b ∈ kept ∧ b.isScoped = false ∧ ∀ w, Pipeline.arrRef spec0 w ≠ b := by decide

theorem tail_arg (c : Dev nD) (b : Ref sig .tc) (hb : b ∈ args) :
    Pipeline.afterTail₀ cfgs (dats m) 0 (V0 m) tailOps c b = m ((c : Thread nD τ).loc b) := by
  unfold Pipeline.afterTail₀
  rw [StableHlo.after_of_forall_not_mem _ _ fun op hop => ?_, Pipeline.withArrays_of_ne _ c (V0 m c) _ b (args_facts b hb).2.2]
  · exact V_arg m c b hb
  · obtain ⟨ops, hops, hop'⟩ := List.mem_flatten.mp hop
    exact (ops_ok.2 ops hops op hop').2 b (args_facts b hb).1

theorem arg_rest (b : Ref sig .tc) (hb : b ∈ args) : b ∈ Pipeline.restRefs sig (cfgs 0).spec :=
  Pipeline.mem_restRefs_of _ (args_facts b hb).2.1 (args_facts b hb).2.2

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have key : ∀ b ∈ args, r.2.mem ((c.tc : Thread nD τ).loc b) = m ((c.tc : Thread nD τ).loc b) :=
      fun b hb => ((h c).2 b (arg_rest b hb)).trans (tail_arg m c b hb)
    ⟨key main_arg0 (by decide), key main_arg1 (by decide), key main_arg2 (by decide), key main_arg3 (by decide),
      key main_arg4 (by decide), key main_arg5 (by decide)⟩) (run_main m ρ)

theorem hz2 : (![0, 0] : Fin 2 → ℕ) = fun _ => 0 := by funext a; fin_cases a <;> rfl

abbrev ld0 (X : Vec F S128x2x4096 .f32) : Vec F S128x1x4096 .f32 :=
  View.ld X (Rect.unit (s := S128x2x4096) ![0, 0, 0] S128x1x4096.size inb_S128x2x4096_S128x1x4096_0_0_0)
abbrev ld1 (X : Vec F S128x2x4096 .f32) : Vec F S128x1x4096 .f32 :=
  View.ld X (Rect.unit (s := S128x2x4096) ![0, 1, 0] S128x1x4096.size inb_S128x2x4096_S128x1x4096_0_1_0)

theorem outsAt0_zero (c : Dev nD) (h : 0 < cfg0.N) :
    outsAt0 m c 0 h = k0_pay2 (ld0 (iblk m c 0 ⟨0, h⟩)) (ld1 (iblk m c 0 ⟨0, h⟩)) (iblk m c 1 ⟨0, h⟩) (k0_pay1 (F := F)) := by
  unfold outsAt0 outOf
  rw [View.read_writes_eq_canon _ _ _ (cover0_2 _ _ _ _ _ _ _ _ _ _ _ _)]
  unfold kernelRun0
  dsimp only
  sl_unfold_words
  rw [View.canon_cons_unit_zero (S := S1x1) hz2]
  simp only [View.readAt_eq_ld, Memref.IsWhole.read_unread]
  rw [View.readCov_unit_zero _ hz2, View.ld_unit_zero (S := S128x4096) hz2]

theorem outsAt0_succ (c : Dev nD) (n : ℕ) (h : n + 1 < cfg0.N) :
    outsAt0 m c (n + 1) h = k0_pay2 (ld0 (iblk m c 0 ⟨n + 1, h⟩)) (ld1 (iblk m c 0 ⟨n + 1, h⟩)) (iblk m c 1 ⟨n + 1, h⟩) (outsAt0 m c n (Nat.lt_of_succ_lt h)) := by
  rw [outsAt0, outOf, View.read_writes_eq_canon _ _ _ (cover0_2 _ _ _ _ _ _ _ _ _ _ _ _)]
  unfold kernelRun0
  dsimp only
  sl_unfold_words
  rw [View.canon_unit_zero (S := S1x1) hz2]
  simp only [View.readAt_eq_ld, Memref.IsWhole.read_unread]
  rw [View.ld_unit_zero (S := S1x1) hz2, View.ld_unit_zero (S := S128x4096) hz2]

end Cert.KernelIdeal.HF

end
-- ==== Proof.KDefs.lean ====
import proofs.«405900_j55972013802040_1_alg».proof.KernelIdeal

noncomputable section

namespace Cert.KernelIdeal

open Idealize.ShloMosaic

namespace KD

variable {F : FTy → Type} [FloatOps F] [Facts]
open Facts₀ Facts

def floorDiv2 (v : IVec S256x256x256 32) : IVec S256x256x256 32 :=
  let d : IVec S_ 32 := id (constantI S_ 32 2#32)
  let q : IVec S256x256x256 32 := Host.divsi v (broadcastInDim S256x256x256 ![] bcast_S_S256x256x256 d)
  let sg : IVec S256x256x256 1 := cmpi .ne (signi v) (broadcastInDim S256x256x256 ![] bcast_S_S256x256x256 (signi d))
  let rm : IVec S256x256x256 32 := Host.remsi v (broadcastInDim S256x256x256 ![] bcast_S_S256x256x256 d)
  let nz : IVec S256x256x256 1 := cmpi .ne rm (broadcastInDim S256x256x256 ![] bcast_S_S256x256x256 (constantI S_ 32 0#32))
  select (andi sg nz) (subi q (broadcastInDim S256x256x256 ![] bcast_S_S256x256x256 (constantI S_ 32 1#32))) q

def gt01 (g : IVec S1x256x256x256 32) : IVec S256x256x256 32 :=
  floorDiv2 (addi (shapeCast S256x256x256 g shapeCasts_S1x256x256x256_S256x256x256)
    (broadcastInDim S256x256x256 ![] bcast_S_S256x256x256 (constantI S_ 32 1#32)))

def tgt0 (g01 : IVec S256x256x256 32) : IVec S4096x4096 32 :=
  shapeCast S4096x4096 (transpose S16x16x16x16x16x16 [0, 2, 4, 1, 3, 5]
    (shapeCast S16x16x16x16x16x16 g01 shapeCasts_S256x256x256_S16x16x16x16x16x16)
    transposes_S16x16x16x16x16x16_S16x16x16x16x16x16_0_2_4_1_3_5) shapeCasts_S16x16x16x16x16x16_S4096x4096

def logits3 (x : FVec F S4096x2x16x16x16 .f32) : FVec F S4096x2x4096 .f32 :=
  shapeCast S4096x2x4096 x shapeCasts_S4096x2x16x16x16_S4096x2x4096

def min0 (t : IVec S4096x4096 32) : IVec S16x16x16 32 :=
  shapeCast S16x16x16 (Host.reduce IntOp.minsi t (constantI S_ 32 2147483647#32) reducesTo_S4096x4096_S4096_d1 h_S_) shapeCasts_S4096_S16x16x16
def max0 (t : IVec S4096x4096 32) : IVec S16x16x16 32 :=
  shapeCast S16x16x16 (Host.reduce IntOp.maxsi t (constantI S_ 32 2147483648#32) reducesTo_S4096x4096_S4096_d1 h_S_) shapeCasts_S4096_S16x16x16

def pmin1 (a : IVec S16x16x16 32) : IVec S8x8x8 32 :=
  Host.reduce IntOp.minsi (shapeCast S8x2x8x2x8x2 a shapeCasts_S16x16x16_S8x2x8x2x8x2) (constantI S_ 32 2147483647#32) reducesTo_S8x2x8x2x8x2_S8x8x8_d1_3_5 h_S_
def pmax1 (a : IVec S16x16x16 32) : IVec S8x8x8 32 :=
  Host.reduce IntOp.maxsi (shapeCast S8x2x8x2x8x2 a shapeCasts_S16x16x16_S8x2x8x2x8x2) (constantI S_ 32 2147483648#32) reducesTo_S8x2x8x2x8x2_S8x8x8_d1_3_5 h_S_
def pmin2 (a : IVec S8x8x8 32) : IVec S4x4x4 32 :=
  Host.reduce IntOp.minsi (shapeCast S4x2x4x2x4x2 a shapeCasts_S8x8x8_S4x2x4x2x4x2) (constantI S_ 32 2147483647#32) reducesTo_S4x2x4x2x4x2_S4x4x4_d1_3_5 h_S_
def pmax2 (a : IVec S8x8x8 32) : IVec S4x4x4 32 :=
  Host.reduce IntOp.maxsi (shapeCast S4x2x4x2x4x2 a shapeCasts_S8x8x8_S4x2x4x2x4x2) (constantI S_ 32 2147483648#32) reducesTo_S4x2x4x2x4x2_S4x4x4_d1_3_5 h_S_
def pmin3 (a : IVec S4x4x4 32) : IVec S2x2x2 32 :=
  Host.reduce IntOp.minsi (shapeCast S2x2x2x2x2x2 a shapeCasts_S4x4x4_S2x2x2x2x2x2) (constantI S_ 32 2147483647#32) reducesTo_S2x2x2x2x2x2_S2x2x2_d1_3_5 h_S_
def pmax3 (a : IVec S4x4x4 32) : IVec S2x2x2 32 :=
  Host.reduce IntOp.maxsi (shapeCast S2x2x2x2x2x2 a shapeCasts_S4x4x4_S2x2x2x2x2x2) (constantI S_ 32 2147483648#32) reducesTo_S2x2x2x2x2x2_S2x2x2_d1_3_5 h_S_
def pmin4 (a : IVec S2x2x2 32) : IVec S1x1x1 32 :=
  Host.reduce IntOp.minsi (shapeCast S1x2x1x2x1x2 a shapeCasts_S2x2x2_S1x2x1x2x1x2) (constantI S_ 32 2147483647#32) reducesTo_S1x2x1x2x1x2_S1x1x1_d1_3_5 h_S_
def pmax4 (a : IVec S2x2x2 32) : IVec S1x1x1 32 :=
  Host.reduce IntOp.maxsi (shapeCast S1x2x1x2x1x2 a shapeCasts_S2x2x2_S1x2x1x2x1x2) (constantI S_ 32 2147483648#32) reducesTo_S1x2x1x2x1x2_S1x1x1_d1_3_5 h_S_

def flat1 (a : IVec S8x8x8 32) : IVec S512 32 := shapeCast S512 a shapeCasts_S8x8x8_S512
def flat2 (a : IVec S4x4x4 32) : IVec S64 32 := shapeCast S64 a shapeCasts_S4x4x4_S64
def flat3 (a : IVec S2x2x2 32) : IVec S8 32 := shapeCast S8 a shapeCasts_S2x2x2_S8
def flat4 (a : IVec S1x1x1 32) : IVec S1 32 := shapeCast S1 a shapeCasts_S1x1x1_S1

def bmin1 (t : IVec S4096x4096 32) : IVec S512 32 := flat1 (pmin1 (min0 t))
def bmax1 (t : IVec S4096x4096 32) : IVec S512 32 := flat1 (pmax1 (max0 t))
def bmin2 (t : IVec S4096x4096 32) : IVec S64 32 := flat2 (pmin2 (pmin1 (min0 t)))
def bmax2 (t : IVec S4096x4096 32) : IVec S64 32 := flat2 (pmax2 (pmax1 (max0 t)))
def bmin3 (t : IVec S4096x4096 32) : IVec S8 32 := flat3 (pmin3 (pmin2 (pmin1 (min0 t))))
def bmax3 (t : IVec S4096x4096 32) : IVec S8 32 := flat3 (pmax3 (pmax2 (pmax1 (max0 t))))
def bmin4 (t : IVec S4096x4096 32) : IVec S1 32 := flat4 (pmin4 (pmin3 (pmin2 (pmin1 (min0 t)))))
def bmax4 (t : IVec S4096x4096 32) : IVec S1 32 := flat4 (pmax4 (pmax3 (pmax2 (pmax1 (max0 t)))))

end KD

end Cert.KernelIdeal

end
-- ==== Proof.KTDefs.lean ====
import proofs.«405900_j55972013802040_1_alg».proof.Proof.Gen.KernelIdeal.Launch
import proofs.«405900_j55972013802040_1_alg».proof.Proof.KDefs

noncomputable section

namespace Cert.KernelIdeal

open Cert.KernelIdeal.Gen
open Idealize.ShloMosaic Idealize.ShloMosaic.TcCoe

namespace KT

variable {F : FTy → Type} [FloatOps F]

abbrev preOps : List (List (HloOp τ sig (Elt F))) := [hostOps0, hostOps0_1, hostOps0_2]
abbrev tailOps : List (List (HloOp τ sig (Elt F))) :=
  [hostOps1, hostOps1_1, hostOps1_2, hostOps1_3, hostOps1_4, hostOps1_5, hostOps1_6, hostOps1_7, hostOps1_8, hostOps1_9, hostOps1_10,
   hostOps1_11, hostOps1_12, hostOps1_13, hostOps1_14, hostOps1_15, hostOps1_16, hostOps1_17, hostOps1_18, hostOps1_19, hostOps1_20]

def cls1 (mn mx : IVec S512 32) : IVec S512 32 :=
  select (cmpi .sgt mx mn) (broadcastInDim S512 ![] bcast_S_S512 (id (constantI S_ 32 2#32))) mn

def logsm1 (x : FVec F S512x3 .f32) : FVec F S512x3 .f32 :=
  let mx : FVec F S512 .f32 := maximumf (broadcastInDim S512 ![] bcast_S_S512 (constant S_ .f32 0xFF800000#32))
    (Host.reduce FloatOps.maximumf x (constant S_ .f32 0xFF800000#32) reducesTo_S512x3_S512_d1 h_S_)
  let sh : FVec F S512x3 .f32 := subf x (broadcastInDim S512x3 ![0, 1] bcast_S512x1_S512x3_0_1 (broadcastInDim S512x1 ![0] bcast_S512_S512x1_0 mx))
  let sm : FVec F S512 .f32 := Host.reduceAdd (Host.exp sh) (constant S_ .f32 0x00000000#32) reducesTo_S512x3_S512_d1 h_S_
  subf sh (broadcastInDim S512x3 ![0, 1] bcast_S512x1_S512x3_0_1 (Host.log (broadcastInDim S512x1 ![0] bcast_S512_S512x1_0 sm)))

def take1 (ls : FVec F S512x3 .f32) (c : IVec S512x1 32) : FVec F S512x1 .f32 :=
  let c' : IVec S512x1 32 := select (cmpi .slt c (broadcastInDim S512x1 ![] bcast_S_S512x1 (constantI S_ 32 0#32)))
    (addi c (broadcastInDim S512x1 ![] bcast_S_S512x1 (constantI S_ 32 3#32))) c
  let ix : IVec S512x1x1 32 := shapeCast S512x1x1 c' shapeCasts_S512x1_S512x1x1
  let ok : IVec S512x1x1 1 := andi (cmpi .sge ix (broadcastInDim S512x1x1 ![] bcast_S_S512x1x1 (constantI S_ 32 0#32)))
    (cmpi .sle ix (broadcastInDim S512x1x1 ![0, 1, 2] bcast_S1x1x1_S512x1x1_0_1_2 (broadcastInDim S1x1x1 ![2] bcast_S1_S1x1x1_2 (constantI S1 32 2#32))))
  select (Host.reduce IntOp.andi ok (constantI S_ 1 1#1) reducesTo_S512x1x1_S512x1_d2 h_S_)
    (Host.gather gather_S512x3_S512x1x1_S512x1_n_1_0_0_1_2_11 ls ix)
    (broadcastInDim S512x1 ![] bcast_S_S512x1 (constant S_ .f32 0x7FC00000#32))

def wsum1 (g : FVec F S512x1 .f32) : FVec F S_ .f32 :=
  Host.reduceAdd (mulf (Host.negf (shapeCast S512 g shapeCasts_S512x1_S512)) (broadcastInDim S512 ![] bcast_S_S512 (constant S_ .f32 0x47000000#32)))
    (constant S_ .f32 0x00000000#32) reducesTo_S512_S_d0 h_S_

def T1 (lg : FVec F S512x3 .f32) (mn mx : IVec S512 32) : FVec F S_ .f32 :=
  wsum1 (take1 (logsm1 lg) (broadcastInDim S512x1 ![0] bcast_S512_S512x1_0 (cls1 mn mx)))

def cls2 (mn mx : IVec S64 32) : IVec S64 32 :=
  select (cmpi .sgt mx mn) (broadcastInDim S64 ![] bcast_S_S64 (id (constantI S_ 32 2#32))) mn

def logsm2 (x : FVec F S64x3 .f32) : FVec F S64x3 .f32 :=
  let mx : FVec F S64 .f32 := maximumf (broadcastInDim S64 ![] bcast_S_S64 (constant S_ .f32 0xFF800000#32))
    (Host.reduce FloatOps.maximumf x (constant S_ .f32 0xFF800000#32) reducesTo_S64x3_S64_d1 h_S_)
  let sh : FVec F S64x3 .f32 := subf x (broadcastInDim S64x3 ![0, 1] bcast_S64x1_S64x3_0_1 (broadcastInDim S64x1 ![0] bcast_S64_S64x1_0 mx))
  let sm : FVec F S64 .f32 := Host.reduceAdd (Host.exp sh) (constant S_ .f32 0x00000000#32) reducesTo_S64x3_S64_d1 h_S_
  subf sh (broadcastInDim S64x3 ![0, 1] bcast_S64x1_S64x3_0_1 (Host.log (broadcastInDim S64x1 ![0] bcast_S64_S64x1_0 sm)))

def take2 (ls : FVec F S64x3 .f32) (c : IVec S64x1 32) : FVec F S64x1 .f32 :=
  let c' : IVec S64x1 32 := select (cmpi .slt c (broadcastInDim S64x1 ![] bcast_S_S64x1 (constantI S_ 32 0#32)))
    (addi c (broadcastInDim S64x1 ![] bcast_S_S64x1 (constantI S_ 32 3#32))) c
  let ix : IVec S64x1x1 32 := shapeCast S64x1x1 c' shapeCasts_S64x1_S64x1x1
  let ok : IVec S64x1x1 1 := andi (cmpi .sge ix (broadcastInDim S64x1x1 ![] bcast_S_S64x1x1 (constantI S_ 32 0#32)))
    (cmpi .sle ix (broadcastInDim S64x1x1 ![0, 1, 2] bcast_S1x1x1_S64x1x1_0_1_2 (broadcastInDim S1x1x1 ![2] bcast_S1_S1x1x1_2 (constantI S1 32 2#32))))
  select (Host.reduce IntOp.andi ok (constantI S_ 1 1#1) reducesTo_S64x1x1_S64x1_d2 h_S_)
    (Host.gather gather_S64x3_S64x1x1_S64x1_n_1_0_0_1_2_11 ls ix)
    (broadcastInDim S64x1 ![] bcast_S_S64x1 (constant S_ .f32 0x7FC00000#32))

def wsum2 (g : FVec F S64x1 .f32) : FVec F S_ .f32 :=
  Host.reduceAdd (mulf (Host.negf (shapeCast S64 g shapeCasts_S64x1_S64)) (broadcastInDim S64 ![] bcast_S_S64 (constant S_ .f32 0x48800000#32)))
    (constant S_ .f32 0x00000000#32) reducesTo_S64_S_d0 h_S_

def T2 (lg : FVec F S64x3 .f32) (mn mx : IVec S64 32) : FVec F S_ .f32 :=
  wsum2 (take2 (logsm2 lg) (broadcastInDim S64x1 ![0] bcast_S64_S64x1_0 (cls2 mn mx)))

def cls3 (mn mx : IVec S8 32) : IVec S8 32 :=
  select (cmpi .sgt mx mn) (broadcastInDim S8 ![] bcast_S_S8 (id (constantI S_ 32 2#32))) mn

def logsm3 (x : FVec F S8x3 .f32) : FVec F S8x3 .f32 :=
  let mx : FVec F S8 .f32 := maximumf (broadcastInDim S8 ![] bcast_S_S8 (constant S_ .f32 0xFF800000#32))
    (Host.reduce FloatOps.maximumf x (constant S_ .f32 0xFF800000#32) reducesTo_S8x3_S8_d1 h_S_)
  let sh : FVec F S8x3 .f32 := subf x (broadcastInDim S8x3 ![0, 1] bcast_S8x1_S8x3_0_1 (broadcastInDim S8x1 ![0] bcast_S8_S8x1_0 mx))
  let sm : FVec F S8 .f32 := Host.reduceAdd (Host.exp sh) (constant S_ .f32 0x00000000#32) reducesTo_S8x3_S8_d1 h_S_
  subf sh (broadcastInDim S8x3 ![0, 1] bcast_S8x1_S8x3_0_1 (Host.log (broadcastInDim S8x1 ![0] bcast_S8_S8x1_0 sm)))

def take3 (ls : FVec F S8x3 .f32) (c : IVec S8x1 32) : FVec F S8x1 .f32 :=
  let c' : IVec S8x1 32 := select (cmpi .slt c (broadcastInDim S8x1 ![] bcast_S_S8x1 (constantI S_ 32 0#32)))
    (addi c (broadcastInDim S8x1 ![] bcast_S_S8x1 (constantI S_ 32 3#32))) c
  let ix : IVec S8x1x1 32 := shapeCast S8x1x1 c' shapeCasts_S8x1_S8x1x1
  let ok : IVec S8x1x1 1 := andi (cmpi .sge ix (broadcastInDim S8x1x1 ![] bcast_S_S8x1x1 (constantI S_ 32 0#32)))
    (cmpi .sle ix (broadcastInDim S8x1x1 ![0, 1, 2] bcast_S1x1x1_S8x1x1_0_1_2 (broadcastInDim S1x1x1 ![2] bcast_S1_S1x1x1_2 (constantI S1 32 2#32))))
  select (Host.reduce IntOp.andi ok (constantI S_ 1 1#1) reducesTo_S8x1x1_S8x1_d2 h_S_)
    (Host.gather gather_S8x3_S8x1x1_S8x1_n_1_0_0_1_2_11 ls ix)
    (broadcastInDim S8x1 ![] bcast_S_S8x1 (constant S_ .f32 0x7FC00000#32))

def wsum3 (g : FVec F S8x1 .f32) : FVec F S_ .f32 :=
  Host.reduceAdd (mulf (Host.negf (shapeCast S8 g shapeCasts_S8x1_S8)) (broadcastInDim S8 ![] bcast_S_S8 (constant S_ .f32 0x4A000000#32)))
    (constant S_ .f32 0x00000000#32) reducesTo_S8_S_d0 h_S_

def T3 (lg : FVec F S8x3 .f32) (mn mx : IVec S8 32) : FVec F S_ .f32 :=
  wsum3 (take3 (logsm3 lg) (broadcastInDim S8x1 ![0] bcast_S8_S8x1_0 (cls3 mn mx)))

def cls4 (mn mx : IVec S1 32) : IVec S1 32 :=
  select (cmpi .sgt mx mn) (broadcastInDim S1 ![] bcast_S_S1 (id (constantI S_ 32 2#32))) mn

def logsm4 (x : FVec F S1x3 .f32) : FVec F S1x3 .f32 :=
  let mx : FVec F S1 .f32 := maximumf (broadcastInDim S1 ![] bcast_S_S1 (constant S_ .f32 0xFF800000#32))
    (Host.reduce FloatOps.maximumf x (constant S_ .f32 0xFF800000#32) reducesTo_S1x3_S1_d1 h_S_)
  let sh : FVec F S1x3 .f32 := subf x (broadcastInDim S1x3 ![0, 1] bcast_S1x1_S1x3_0_1 (broadcastInDim S1x1 ![0] bcast_S1_S1x1_0 mx))
  let sm : FVec F S1 .f32 := Host.reduceAdd (Host.exp sh) (constant S_ .f32 0x00000000#32) reducesTo_S1x3_S1_d1 h_S_
  subf sh (broadcastInDim S1x3 ![0, 1] bcast_S1x1_S1x3_0_1 (Host.log (broadcastInDim S1x1 ![0] bcast_S1_S1x1_0 sm)))

def take4 (ls : FVec F S1x3 .f32) (c : IVec S1x1 32) : FVec F S1x1 .f32 :=
  let c' : IVec S1x1 32 := select (cmpi .slt c (broadcastInDim S1x1 ![] bcast_S_S1x1 (constantI S_ 32 0#32)))
    (addi c (broadcastInDim S1x1 ![] bcast_S_S1x1 (constantI S_ 32 3#32))) c
  let ok : IVec S1x1 1 := andi (cmpi .sge c' (broadcastInDim S1x1 ![] bcast_S_S1x1 (constantI S_ 32 0#32)))
    (cmpi .sle c' (broadcastInDim S1x1 ![1] bcast_S1_S1x1_1 (constantI S1 32 2#32)))
  select (broadcastInDim S1x1 ![1] bcast_S1_S1x1_1 (Host.reduce IntOp.andi ok (constantI S_ 1 1#1) reducesTo_S1x1_S1_d1 h_S_))
    (Host.gather gather_S1x3_S1x1_S1x1_0_1_n_n_1_1_11 ls c')
    (broadcastInDim S1x1 ![] bcast_S_S1x1 (constant S_ .f32 0x7FC00000#32))

def wsum4 (g : FVec F S1x1 .f32) : FVec F S_ .f32 :=
  Host.reduceAdd (mulf (Host.negf (shapeCast S1 g shapeCasts_S1x1_S1)) (broadcastInDim S1 ![] bcast_S_S1 (constant S_ .f32 0x4B800000#32)))
    (constant S_ .f32 0x00000000#32) reducesTo_S1_S_d0 h_S_

def T4 (lg : FVec F S1x3 .f32) (mn mx : IVec S1 32) : FVec F S_ .f32 :=
  wsum4 (take4 (logsm4 lg) (broadcastInDim S1x1 ![0] bcast_S1_S1x1_0 (cls4 mn mx)))

def res (out : FVec F S1x1 .f32) (t : IVec S4096x4096 32) (l1 : FVec F S512x3 .f32) (l2 : FVec F S64x3 .f32) (l3 : FVec F S8x3 .f32)
    (l4 : FVec F S1x3 .f32) : FVec F S_ .f32 :=
  addf (addf (addf (addf (shapeCast S_ out shapeCasts_S1x1_S_) (T1 l1 (KD.bmin1 t) (KD.bmax1 t))) (T2 l2 (KD.bmin2 t) (KD.bmax2 t)))
    (T3 l3 (KD.bmin3 t) (KD.bmax3 t))) (T4 l4 (KD.bmin4 t) (KD.bmax4 t))

end KT

end Cert.KernelIdeal

end
-- ==== Proof.KTail.lean ====
import proofs.«405900_j55972013802040_1_alg».proof.Proof.KTDefs
import Idealize.ShloMosaic.Lib.Pipeline.Frame

noncomputable section

namespace Cert.KernelIdeal

open Cert.KernelIdeal.Gen
open Idealize.ShloMosaic Idealize.ShloMosaic.TcCoe

namespace KT

variable {F : FTy → Type} [FloatOps F]

theorem pre_v6 (W : Valuation τ sig (Elt F)) :
    StableHlo.after (List.flatten preOps) W (Proc.devRef .tc main_v6) = KD.tgt0 (KD.gt01 (W (Proc.devRef .tc main_arg0))) := by
  simp only [preOps, List.flatten_cons, List.flatten_nil, List.append_nil, List.cons_append, List.nil_append]
  after_results_simp
  rfl

theorem pre_v7 (W : Valuation τ sig (Elt F)) :
    StableHlo.after (List.flatten preOps) W (Proc.devRef .tc main_v7) = KD.logits3 (W (Proc.devRef .tc main_arg1)) := by
  simp only [preOps, List.flatten_cons, List.flatten_nil, List.append_nil, List.cons_append, List.nil_append]
  after_results_simp
  rfl

-- The last eleven stretches read six buffers only: the running loss, level 2's picks, the pooled extremes and two logits.
theorem rest_eval (V : Valuation τ sig (Elt F)) :
    StableHlo.after (List.flatten (tailOps.drop 10)) V (Proc.devRef .tc main_v81)
      = addf (addf (addf (V (Proc.devRef .tc main_v30)) (wsum2 (V (Proc.devRef .tc main_v41))))
          (T3 (V (Proc.devRef .tc main_arg4)) (KD.flat3 (KD.pmin3 (V (Proc.devRef .tc main_v32)))) (KD.flat3 (KD.pmax3 (V (Proc.devRef .tc main_v34))))))
          (T4 (V (Proc.devRef .tc main_arg5)) (KD.flat4 (KD.pmin4 (KD.pmin3 (V (Proc.devRef .tc main_v32))))) (KD.flat4 (KD.pmax4 (KD.pmax3 (V (Proc.devRef .tc main_v34)))))) := by
  simp only [tailOps, List.drop_succ_cons, List.drop_zero, List.flatten_cons, List.flatten_nil, List.append_nil, List.cons_append, List.nil_append]
  after_results_simp
  simp only [StableHlo.TRef.ofBuf, StableHlo.TRef.toBuf, cast_eq]
  rfl

-- The tail is its first ten stretches, which write those six buffers, followed by the rest.
theorem tail_eval (W : Valuation τ sig (Elt F)) :
    StableHlo.after (List.flatten tailOps) W (Proc.devRef .tc main_v81)
      = res (W (Proc.devRef .tc main_v8)) (W (Proc.devRef .tc main_v6)) (W (Proc.devRef .tc main_arg2)) (W (Proc.devRef .tc main_arg3))
          (W (Proc.devRef .tc main_arg4)) (W (Proc.devRef .tc main_arg5)) := by
  rw [← List.take_append_drop 10 tailOps, List.flatten_append, StableHlo.after_append, rest_eval]
  simp only [tailOps, List.take_succ_cons, List.take_zero, List.flatten_cons, List.flatten_nil, List.append_nil, List.cons_append, List.nil_append]
  after_results_simp
  simp only [StableHlo.TRef.ofBuf, StableHlo.TRef.toBuf, cast_eq]
  rfl

end KT

end Cert.KernelIdeal

end
-- ==== Proof.Spec.lean ====
import Idealize.ShloMosaic.PureOps.Ideal
import Idealize.ShloMosaic.Lib.ValueIdx

noncomputable section

namespace Cert.Spec

open Idealize.ShloMosaic

abbrev S4096x2x4096 : Shape := ⟨3, ![4096, 2, 4096]⟩
abbrev S4096x4096 : Shape := ⟨2, ![4096, 4096]⟩

def nll (a b : EReal) (t : BitVec 32) : EReal :=
  (max a b + Ideal.log (Ideal.exp (a - max a b) + Ideal.exp (b - max a b))) - (if t = 1#32 then b else a)

def blockMean (x : S4096x2x4096.Idx → EReal) (t : S4096x4096.Idx → BitVec 32) (b : Fin 4096) : EReal :=
  (∑ j : Fin 4096, nll (x (ValueIdx.ix3 b 0 j)) (x (ValueIdx.ix3 b 1 j)) (t (ValueIdx.ix2 b j))) * ((1 / 4096 : ℝ) : EReal)

def loss0 (x : S4096x2x4096.Idx → EReal) (t : S4096x4096.Idx → BitVec 32) : EReal :=
  ∑ b : Fin 4096, blockMean x t b

end Cert.Spec

end
-- ==== Proof.KPay.lean ====
import proofs.«405900_j55972013802040_1_alg».proof.Proof.Gen.KernelIdeal.Skeleton
import proofs.«405900_j55972013802040_1_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Logic.Equiv.Fin.Basic
import Mathlib.Algebra.BigOperators.Group.Finset.Defs
import Mathlib.Data.Fintype.BigOperators

noncomputable section

namespace Cert.KernelIdeal.KPay

open Idealize.ShloMosaic Idealize.ShloMosaic.ValueIdx Cert.KernelIdeal Cert.KernelIdeal.Gen
open scoped BigOperators

theorem ofBits_inv4096 : Ideal.ofBits .f32 0x39800000#32 = ((1 / 4096 : ℝ) : EReal) := by
  simp [Ideal.ofBits, Ideal.ieee, -EReal.coe_mul]; norm_num

theorem sum_chunks (f : Fin 4096 → EReal) :
    ∑ b : Fin 4096, f b = ∑ t : Fin 32, ∑ r : Fin 128, f ⟨128 * t.val + r.val, by omega⟩ := by
  rw [← Fintype.sum_prod_type (f := fun p : Fin 32 × Fin 128 => f ⟨128 * p.1.val + p.2.val, by omega⟩)]
  refine (Fintype.sum_equiv (finProdFinEquiv (m := 32) (n := 128)) _ _ fun p => ?_).symm
  refine congrArg f (Fin.ext ?_)
  show 128 * p.1.val + p.2.val = p.2.val + 128 * p.1.val
  omega

section Layout
variable {α : Type}

theorem shapeCast_a1b_ab_apply {a b : ℕ} (x : (⟨3, ![a, 1, b]⟩ : Shape).Idx → α)
    (h : (⟨3, ![a, 1, b]⟩ : Shape).ShapeCasts ⟨2, ![a, b]⟩) (r : Fin a) (j : Fin b) :
    shapeCast ⟨2, ![a, b]⟩ x h (ix2 r j) = x (ix3 r (0 : Fin 1) j) :=
  shapeCast_apply x h _ _ (by
    rw [Shape.rowMajor_val_three, Shape.rowMajor_val_two]
    show (r.val * 1 + 0) * b + j.val = r.val * b + j.val
    rw [Nat.mul_one, Nat.add_zero])

theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    rw [Shape.rowMajor_val_two, Shape.rowMajor_val_one]
    show r.val = r.val * 1 + u.val
    omega)

end Layout

theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ j : Fin b, src (ix2 r j) := by
  refine (Ideal.multiReduction_add_single src _ h hφ hacc (ix1 r)).trans ?_
  show ∑ j : Fin b, src (h.lift (ix1 r) j) = _
  refine Finset.sum_congr rfl fun j _ => congrArg src ?_
  funext c
  match c with
  | ⟨0, _⟩ => rfl
  | ⟨1, _⟩ => rfl

theorem colSum_apply {a : ℕ} (src : FVec Ideal ⟨2, ![a, 1]⟩ .f32) (h : Shape.Reduces ⟨2, ![a, 1]⟩ [0] ⟨1, ![1]⟩)
    (hφ : FKind.Formats .f32) (hacc : (0x00000000#32 : BitVec 32) = FKind.add.neutral .f32 hφ) (u : Fin 1) :
    multiReduction .add [0] ⟨1, ![1]⟩ src 0x00000000#32 h hφ hacc (ix1 u) = ∑ r : Fin a, src (ix2 r u) := by
  refine (Ideal.multiReduction_add_single src _ h hφ hacc (ix1 u)).trans ?_
  show ∑ r : Fin a, src (h.lift (ix1 u) r) = _
  refine Finset.sum_congr rfl fun r _ => congrArg src ?_
  funext c
  match c with
  | ⟨0, _⟩ => rfl
  | ⟨1, _⟩ => rfl

theorem select_eq_one {α : Type} (t : BitVec 32) (x y : α) :
    Scalar.select (IntOp.cmpi .eq t 1#32) x y = if t = 1#32 then x else y := by
  by_cases h : t = 1#32
  · subst h; rfl
  · simp [Scalar.select, IntOp.cmpi, h, beq_eq_false_iff_ne.mpr h]

theorem pay1_apply : (k0_pay1 (F := Ideal)) (ix2 0 0) = 0 := by
  unfold k0_pay1
  exact Ideal.ofBits_zero_f32

theorem pay2_apply (v3 v5 : Vec Ideal S128x1x4096 .f32) (v15 : Vec Ideal S128x4096 .i32) (v27 : Vec Ideal S1x1 .f32) :
    k0_pay2 (F := Ideal) v3 v5 v15 v27 (ix2 0 0)
      = v27 (ix2 0 0) + ∑ r : Fin 128, (∑ j : Fin 4096,
          Cert.Spec.nll (v3 (ix3 r 0 j)) (v5 (ix3 r 0 j)) (v15 (ix2 r j))) * ((1 / 4096 : ℝ) : EReal) := by
  unfold k0_pay2
  dsimp only
  refine (addf_apply _ _ _).trans ?_
  refine congrArg₂ (· + ·) ?_ ?_
  · rw [shapeCast_self]
  · refine (shapeCast_a_1a_apply _ _ 0 0).trans ?_
    refine (colSum_apply _ _ _ _ 0).trans ?_
    refine Finset.sum_congr rfl fun r _ => ?_
    refine (mulf_apply _ _ _).trans ?_
    refine congrArg₂ (· * ·) ?_ ?_
    · refine (shapeCast_a_a1_apply _ _ r 0).trans ?_
      refine (rowSum_apply _ _ _ _ r).trans ?_
      refine Finset.sum_congr rfl fun j _ => ?_
      have e3 : ∀ h, shapeCast S128x4096 v3 h (ix2 r j) = v3 (ix3 r 0 j) := fun h => shapeCast_a1b_ab_apply v3 h r j
      have e5 : ∀ h, shapeCast S128x4096 v5 h (ix2 r j) = v5 (ix3 r 0 j) := fun h => shapeCast_a1b_ab_apply v5 h r j
      have e15 : ∀ h, shapeCast S128x4096 v15 h (ix2 r j) = v15 (ix2 r j) := fun h => congrFun (shapeCast_self v15 h) _
      show (max (shapeCast S128x4096 v3 _ (ix2 r j)) (shapeCast S128x4096 v5 _ (ix2 r j))
              + Ideal.log (Ideal.exp (shapeCast S128x4096 v3 _ (ix2 r j)
                    - max (shapeCast S128x4096 v3 _ (ix2 r j)) (shapeCast S128x4096 v5 _ (ix2 r j)))
                  + Ideal.exp (shapeCast S128x4096 v5 _ (ix2 r j)
                    - max (shapeCast S128x4096 v3 _ (ix2 r j)) (shapeCast S128x4096 v5 _ (ix2 r j)))))
            - Scalar.select (IntOp.cmpi .eq (shapeCast S128x4096 v15 _ (ix2 r j)) 1#32)
                (shapeCast S128x4096 v5 _ (ix2 r j)) (shapeCast S128x4096 v3 _ (ix2 r j)) = _
      rw [e3, e5, e15, select_eq_one]
      rfl
    · exact ofBits_inv4096

end Cert.KernelIdeal.KPay

end
-- ==== Proof.KAcc.lean ====
import proofs.«405900_j55972013802040_1_alg».proof.Proof.KFrame
import proofs.«405900_j55972013802040_1_alg».proof.Proof.KPay
import proofs.«405900_j55972013802040_1_alg».proof.Proof.Spec
import Idealize.ShloMosaic.Lib.Pipeline.Value
import Idealize.ShloMosaic.Lib.ValueIdx

noncomputable section

namespace Cert.KernelIdeal.KAcc

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem iblk0_apply (c : Dev nD) (t : Fin cfg0.N) (r : Fin 128) (k : Fin 2) (j : Fin 4096)
    (h : 128 * t.val + r.val < 4096) :
    HF.iblk m c 0 t (ix3 r k j) = HF.V m c main_v7 (ix3 ⟨128 * t.val + r.val, h⟩ k j) := by
  show HF.V m c main_v7 (((cfg0.win 0).blk t).view.emb (ix3 r k j)) = _
  refine congrArg (HF.V m c main_v7) ?_
  obtain ⟨e0, e1, e2, -, -, -, -⟩ := idx_facts t
  funext a; apply Fin.ext
  match a with
  | ⟨0, _⟩ => show win0_0.index t (0 : Fin 3) * 128 + 1 * r.val = 128 * t.val + r.val; omega
  | ⟨1, _⟩ => show win0_0.index t (1 : Fin 3) * 2 + 1 * k.val = k.val; omega
  | ⟨2, _⟩ => show win0_0.index t (2 : Fin 3) * 4096 + 1 * j.val = j.val; omega

theorem iblk1_apply (c : Dev nD) (t : Fin cfg0.N) (r : Fin 128) (j : Fin 4096)
    (h : 128 * t.val + r.val < 4096) :
    HF.iblk m c 1 t (ix2 r j) = HF.V m c main_v6 (ix2 ⟨128 * t.val + r.val, h⟩ j) := by
  show HF.V m c main_v6 (((cfg0.win 1).blk t).view.emb (ix2 r j)) = _
  refine congrArg (HF.V m c main_v6) ?_
  obtain ⟨-, -, -, e0, e1, -, -⟩ := idx_facts t
  funext a; apply Fin.ext
  match a with
  | ⟨0, _⟩ => show win0_1.index t (0 : Fin 2) * 128 + 1 * r.val = 128 * t.val + r.val; omega
  | ⟨1, _⟩ => show win0_1.index t (1 : Fin 2) * 4096 + 1 * j.val = j.val; omega

theorem ld0_apply (X : Vec Ideal S128x2x4096 .f32) (r : Fin 128) (j : Fin 4096) :
    HF.ld0 X (ix3 r 0 j) = X (ix3 r 0 j) := by
  show X (_) = _
  refine congrArg X ?_
  funext a; apply Fin.ext
  match a with
  | ⟨0, _⟩ => show 0 + 1 * r.val = r.val; omega
  | ⟨1, _⟩ => show 0 + 1 * 0 = 0; rfl
  | ⟨2, _⟩ => show 0 + 1 * j.val = j.val; omega

theorem ld1_apply (X : Vec Ideal S128x2x4096 .f32) (r : Fin 128) (j : Fin 4096) :
    HF.ld1 X (ix3 r 0 j) = X (ix3 r 1 j) := by
  show X (_) = _
  refine congrArg X ?_
  funext a; apply Fin.ext
  match a with
  | ⟨0, _⟩ => show 0 + 1 * r.val = r.val; omega
  | ⟨1, _⟩ => show 1 + 1 * 0 = 1; rfl
  | ⟨2, _⟩ => show 0 + 1 * j.val = j.val; omega

theorem point_apply (c : Dev nD) (t : Fin cfg0.N) (ht : t.val < 32) (acc : Vec Ideal S1x1 .f32) :
    k0_pay2 (F := Ideal) (HF.ld0 (HF.iblk m c 0 t)) (HF.ld1 (HF.iblk m c 0 t)) (HF.iblk m c 1 t) acc (ix2 0 0)
      = acc (ix2 0 0) + ∑ r : Fin 128,
          Cert.Spec.blockMean (HF.V m c main_v7) (HF.V m c main_v6) ⟨128 * t.val + r.val, by omega⟩ := by
  refine (KPay.pay2_apply _ _ _ _).trans ?_
  refine congrArg (acc (ix2 0 0) + ·) ?_
  refine Finset.sum_congr rfl fun r _ => ?_
  unfold Cert.Spec.blockMean
  refine congrArg (· * ((1 / 4096 : ℝ) : EReal)) ?_
  refine Finset.sum_congr rfl fun j _ => ?_
  have hr : 128 * t.val + r.val < 4096 := by omega
  rw [ld0_apply, ld1_apply, iblk0_apply m c t r 0 j hr, iblk0_apply m c t r 1 j hr, iblk1_apply m c t r j hr]

theorem acc_apply (c : Dev nD) : ∀ (n : ℕ) (hn : n < 32) (h : n < cfg0.N),
    HF.outsAt0 m c n h (ix2 0 0) = ∑ s : Fin (n + 1), ∑ r : Fin 128,
      Cert.Spec.blockMean (HF.V m c main_v7) (HF.V m c main_v6) ⟨128 * s.val + r.val, by omega⟩
  | 0, hn, h => by
    rw [HF.outsAt0_zero, point_apply m c ⟨0, h⟩ hn, KPay.pay1_apply, zero_add, Fin.sum_univ_one]
    rfl
  | n + 1, hn, h => by
    rw [HF.outsAt0_succ, point_apply m c ⟨n + 1, h⟩ hn, acc_apply c n (by omega) (Nat.lt_of_succ_lt h),
      Fin.sum_univ_castSucc (n := n + 1)]
    rfl

theorem out_eq (c : Dev nD) :
    (HF.dats (F := Ideal) m 0 c).arrAt 2 cfg0.N = fun _ => Cert.Spec.loss0 (HF.V m c main_v7) (HF.V m c main_v6) := by
  have h31 : 31 < cfg0.N := lt_of_lt_of_eq (by decide) (show 32 = cfg0.N from N_0.symm)
  refine (HF.dats (F := Ideal) m 0 c).arrAt_eq_of_cover 2 _ (fun t hf => ?_) (fun i => ⟨⟨31, h31⟩, (flush0_2 _).mpr rfl, ?_⟩)
  ·
    have hN : t.val < 32 := lt_of_lt_of_eq t.isLt (show cfg0.N = 32 from N_0)
    have ht : t.val % 32 = 31 := (flush0_2 t).mp hf
    show (cfg0.win 2).cut (grid0.coords t) ((HF.dats (F := Ideal) m 0 c).after 2 t) = _
    rw [HF.after0_2]
    funext j
    obtain ⟨p, q, rfl⟩ : ∃ (p : Fin 1) (q : Fin 1), j = ix2 p q := ⟨j 0, j 1, eq_ix2 j⟩
    obtain rfl : p = 0 := Subsingleton.elim _ _
    obtain rfl : q = 0 := Subsingleton.elim _ _
    show HF.outsAt0 m c t.val t.isLt (ix2 0 0) = Cert.Spec.loss0 (HF.V m c main_v7) (HF.V m c main_v6)
    obtain ⟨n, hn⟩ := t
    obtain rfl : n = 31 := by dsimp only at hN ht; omega
    rw [acc_apply m c 31 (by decide) hn]
    unfold Cert.Spec.loss0
    exact (KPay.sum_chunks _).symm
  ·
    show i ∈ ((View.whole main_v8).slice (win0_2.rect ⟨31, h31⟩)).set
    rw [View.set_slice_whole, Rect.mem_set_unit]
    obtain ⟨-, -, -, -, -, e0, e1⟩ := idx_facts ⟨31, h31⟩
    intro a
    match a with
    | ⟨0, _⟩ =>
      show win0_2.index ⟨31, h31⟩ (0 : Fin 2) * 1 ≤ (i 0).val ∧ (i 0).val < win0_2.index ⟨31, h31⟩ (0 : Fin 2) * 1 + 1
      have := idx2_lt0 i; omega
    | ⟨1, _⟩ =>
      show win0_2.index ⟨31, h31⟩ (1 : Fin 2) * 1 ≤ (i 1).val ∧ (i 1).val < win0_2.index ⟨31, h31⟩ (1 : Fin 2) * 1 + 1
      have := idx2_lt1 i; omega

end Cert.KernelIdeal.KAcc

end
-- ==== Proof.KRun.lean ====
import proofs.«405900_j55972013802040_1_alg».proof.Proof.KFrame
import proofs.«405900_j55972013802040_1_alg».proof.Proof.KTail
import proofs.«405900_j55972013802040_1_alg».proof.Proof.KAcc
import proofs.«405900_j55972013802040_1_alg».proof.Proof.Spec

noncomputable section

namespace Cert.KernelIdeal

open Cert.KernelIdeal.Gen
open Idealize.ShloMosaic Idealize.ShloMosaic.TcCoe
open Idealize.SL.Sem

namespace KRun

def val (g : IVec S1x256x256x256 32) (x : FVec Ideal S4096x2x16x16x16 .f32) (l1 : FVec Ideal S512x3 .f32)
    (l2 : FVec Ideal S64x3 .f32) (l3 : FVec Ideal S8x3 .f32) (l4 : FVec Ideal S1x3 .f32) : FVec Ideal S_ .f32 :=
  KT.res (F := Ideal) (fun _ => Cert.Spec.loss0 (KD.logits3 (F := Ideal) x) (KD.tgt0 (KD.gt01 g))) (KD.tgt0 (KD.gt01 g)) l1 l2 l3 l4

variable (m : (ℓ : Loc nD τ sig) → Buf (Elt Ideal) ℓ) (ρ : Dev nD → PrngReg)

theorem V_v6 (c : Dev nD) : HF.V m c main_v6 = KD.tgt0 (KD.gt01 (m ((c.tc : Thread nD τ).loc main_arg0))) :=
  KT.pre_v6 (F := Ideal) (fun b => m (c, b))
theorem V_v7 (c : Dev nD) : HF.V m c main_v7 = KD.logits3 (F := Ideal) (m ((c.tc : Thread nD τ).loc main_arg1)) :=
  KT.pre_v7 (F := Ideal) (fun b => m (c, b))

theorem res_eq (c : Dev nD) :
    Pipeline.afterTail₀ cfgs (HF.dats (F := Ideal) m) 0 (HF.V0 m) HF.tailOps c main_v81
      = val (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Pipeline.afterTail₀
  refine (KT.tail_eval (F := Ideal) _).trans ?_
  have e8 : Pipeline.withArrays (cfgs 0).spec c (HF.V0 m c) (fun w => (HF.dats m 0 c).arrAt w (cfgs 0).N) (Proc.devRef .tc main_v8)
      = (HF.dats m 0 c).arrAt 2 cfg0.N :=
    Pipeline.withArrays_arr (cfgs 0).spec launch0.win.arr_inj c (HF.V0 m c) _ 2
  have e6 : Pipeline.withArrays (cfgs 0).spec c (HF.V0 m c) (fun w => (HF.dats m 0 c).arrAt w (cfgs 0).N) (Proc.devRef .tc main_v6)
      = HF.V m c main_v6 :=
    (Pipeline.withArrays_arr (cfgs 0).spec launch0.win.arr_inj c (HF.V0 m c) _ 1).trans
      (((HF.dats m 0 c).arrAt_in 1 rfl _).trans (HF.A_eq m c 1))
  have ea : ∀ b ∈ HF.args, Pipeline.withArrays (cfgs 0).spec c (HF.V0 m c) (fun w => (HF.dats m 0 c).arrAt w (cfgs 0).N) (Proc.devRef .tc b)
      = m ((c.tc : Thread nD τ).loc b) := fun b hb =>
    (Pipeline.withArrays_of_ne (cfgs 0).spec c (HF.V0 m c) _ b (fun w => by
      simp only [List.mem_cons, List.mem_nil_iff, or_false] at hb
      rcases hb with rfl | rfl | rfl | rfl | rfl | rfl <;> fin_cases w <;> decide)).trans (HF.V_arg m c b hb)
  rw [e8, e6, ea main_arg2 (by decide), ea main_arg3 (by decide), ea main_arg4 (by decide), ea main_arg5 (by decide),
    KAcc.out_eq m c, V_v6 m c, V_v7 m c]
  rfl

theorem run : θ_run (defs (F := Ideal)) (onTc (τ := τ) (main (F := Ideal))) ⟨m, fun _ => 0, ρ⟩ (fun r => ∀ c : Dev nD,
      r.2.mem ((c.tc : Thread nD τ).loc main_v81)
        = val (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have key : ∀ b ∈ HF.args, r.2.mem ((c.tc : Thread nD τ).loc b) = m ((c.tc : Thread nD τ).loc b) :=
      fun b hb => ((h c).2 b (HF.arg_rest b hb)).trans (HF.tail_arg m c b hb)
    ⟨((h c).2 main_v81 (Pipeline.mem_restRefs_of _ rfl (fun w => by fin_cases w <;> decide))).trans (res_eq m c),
      key main_arg0 (by decide), key main_arg1 (by decide), key main_arg2 (by decide), key main_arg3 (by decide),
      key main_arg4 (by decide), key main_arg5 (by decide)⟩) (HF.run_main m ρ)

end KRun

end Cert.KernelIdeal

end
-- ==== Proof.ROps.lean ====
import proofs.«405900_j55972013802040_1_alg».proof.Proof.Gen.ReferenceIdeal
import Idealize.ShloMosaic.Lib.StableHlo.Run

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

abbrev st0 : List (HloOp τ sig (Elt F)) :=
  [ StableHlo.reshape main_arg0 main_v0 rfl shapeCasts_S1x256x256x256_S256x256x256,
    StableHlo.nullary main_c (constantI S_ 32 1#32),
    StableHlo.unary main_c main_v1 (broadcastInDim S256x256x256 ![] bcast_S_S256x256x256 : (⟨S_, .i32⟩ : BufTy).Contents (Elt F) → (⟨S256x256x256, .i32⟩ : BufTy).Contents (Elt F)),
    StableHlo.binary main_v0 main_v1 main_v2 (addi : (⟨S256x256x256, .i32⟩ : BufTy).Contents (Elt F) → (⟨S256x256x256, .i32⟩ : BufTy).Contents (Elt F) → (⟨S256x256x256, .i32⟩ : BufTy).Contents (Elt F)),
    StableHlo.nullary main_c_0 (constantI S_ 32 2#32) ]

abbrev st1 : List (HloOp τ sig (Elt F)) :=
  [ StableHlo.TRef.unary (.of main_c_0 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S256x256x256, .i32⟩) (broadcastInDim S256x256x256 ![] bcast_S_S256x256x256),
    StableHlo.TRef.binary (.of main_v2 : StableHlo.TRef sig ⟨S256x256x256, .i32⟩) (.of main_call0_v1 : StableHlo.TRef sig ⟨S256x256x256, .i32⟩) (.of main_call0_v2 : StableHlo.TRef sig ⟨S256x256x256, .i32⟩) Host.divsi,
    StableHlo.TRef.unary (.of main_v2 : StableHlo.TRef sig ⟨S256x256x256, .i32⟩) (.of main_call0_v3 : StableHlo.TRef sig ⟨S256x256x256, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S256x256x256, .i32⟩) (broadcastInDim S256x256x256 ![] bcast_S_S256x256x256),
    StableHlo.TRef.binary (.of main_call0_v3 : StableHlo.TRef sig ⟨S256x256x256, .i32⟩) (.of main_call0_v5 : StableHlo.TRef sig ⟨S256x256x256, .i32⟩) (.of main_call0_v6 : StableHlo.TRef sig ⟨S256x256x256, .i1⟩) (cmpi .ne),
    StableHlo.TRef.unary (.of main_call0_v0 : StableHlo.TRef sig ⟨S_, .i32⟩) (.of main_call0_v7 : StableHlo.TRef sig ⟨S256x256x256, .i32⟩) (broadcastInDim S256x256x256 ![] bcast_S_S256x256x256),
    StableHlo.TRef.binary (.of main_v2 : StableHlo.TRef sig ⟨S256x256x256, .i32⟩) (.of main_call0_v7 : StableHlo.TRef sig ⟨S256x256x256, .i32⟩) (.of main_call0_v8 : StableHlo.TRef sig ⟨S256x256x256, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S256x256x256, .i32⟩) (broadcastInDim S256x256x256 ![] bcast_S_S256x256x256),
    StableHlo.TRef.binary (.of main_call0_v8 : StableHlo.TRef sig ⟨S256x256x256, .i32⟩) (.of main_call0_v9 : StableHlo.TRef sig ⟨S256x256x256, .i32⟩) (.of main_call0_v10 : StableHlo.TRef sig ⟨S256x256x256, .i1⟩) (cmpi .ne),
    StableHlo.TRef.binary (.of main_call0_v6 : StableHlo.TRef sig ⟨S256x256x256, .i1⟩) (.of main_call0_v10 : StableHlo.TRef sig ⟨S256x256x256, .i1⟩) (.of main_call0_v11 : StableHlo.TRef sig ⟨S256x256x256, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S256x256x256, .i32⟩) (broadcastInDim S256x256x256 ![] bcast_S_S256x256x256),
    StableHlo.TRef.binary (.of main_call0_v2 : StableHlo.TRef sig ⟨S256x256x256, .i32⟩) (.of main_call0_v12 : StableHlo.TRef sig ⟨S256x256x256, .i32⟩) (.of main_call0_v13 : StableHlo.TRef sig ⟨S256x256x256, .i32⟩) subi,
    StableHlo.TRef.ternary (.of main_call0_v11 : StableHlo.TRef sig ⟨S256x256x256, .i1⟩) (.of main_call0_v13 : StableHlo.TRef sig ⟨S256x256x256, .i32⟩) (.of main_call0_v2 : StableHlo.TRef sig ⟨S256x256x256, .i32⟩) (.of main_v3 : StableHlo.TRef sig ⟨S256x256x256, .i32⟩) select ]

abbrev st2 : List (HloOp τ sig (Elt F)) :=
  [ StableHlo.reshape main_v3 main_v4 rfl shapeCasts_S256x256x256_S16x16x16x16x16x16,
    StableHlo.unary main_v4 main_v5 ((transpose S16x16x16x16x16x16 [0, 2, 4, 1, 3, 5] · transposes_S16x16x16x16x16x16_S16x16x16x16x16x16_0_2_4_1_3_5) : (⟨S16x16x16x16x16x16, .i32⟩ : BufTy).Contents (Elt F) → (⟨S16x16x16x16x16x16, .i32⟩ : BufTy).Contents (Elt F)),
    StableHlo.reshape main_v5 main_v6 rfl shapeCasts_S16x16x16x16x16x16_S4096x4096 ]

abbrev st3 : List (HloOp τ sig (Elt F)) :=
  [ StableHlo.TRef.nullary (.of main_call1_cst : StableHlo.TRef sig ⟨S_, .f32⟩) (constant S_ .f32 0xFF800000#32),
    StableHlo.TRef.binary (.of main_arg1 : StableHlo.TRef sig ⟨S4096x2x16x16x16, .f32⟩) (.of main_call1_cst : StableHlo.TRef sig ⟨S_, .f32⟩) (.of main_call1_v0 : StableHlo.TRef sig ⟨S4096x16x16x16, .f32⟩) (fun x v => Host.reduce FloatOps.maximumf x v reducesTo_S4096x2x16x16x16_S4096x16x16x16_d1 h_S_),
    StableHlo.TRef.nullary (.of main_call1_cst_0 : StableHlo.TRef sig ⟨S_, .f32⟩) (constant S_ .f32 0xFF800000#32),
    StableHlo.TRef.unary (.of main_call1_cst_0 : StableHlo.TRef sig ⟨S_, .f32⟩) (.of main_call1_v1 : StableHlo.TRef sig ⟨S4096x16x16x16, .f32⟩) (broadcastInDim S4096x16x16x16 ![] bcast_S_S4096x16x16x16),
    StableHlo.TRef.binary (.of main_call1_v1 : StableHlo.TRef sig ⟨S4096x16x16x16, .f32⟩) (.of main_call1_v0 : StableHlo.TRef sig ⟨S4096x16x16x16, .f32⟩) (.of main_call1_v2 : StableHlo.TRef sig ⟨S4096x16x16x16, .f32⟩) maximumf,
    StableHlo.TRef.unary (.of main_call1_v2 : StableHlo.TRef sig ⟨S4096x16x16x16, .f32⟩) (.of main_call1_v3 : StableHlo.TRef sig ⟨S4096x1x16x16x16, .f32⟩) (broadcastInDim S4096x1x16x16x16 ![0, 2, 3, 4] bcast_S4096x16x16x16_S4096x1x16x16x16_0_2_3_4),
    StableHlo.TRef.unary (.of main_call1_v3 : StableHlo.TRef sig ⟨S4096x1x16x16x16, .f32⟩) (.of main_call1_v4 : StableHlo.TRef sig ⟨S4096x2x16x16x16, .f32⟩) (broadcastInDim S4096x2x16x16x16 ![0, 1, 2, 3, 4] bcast_S4096x1x16x16x16_S4096x2x16x16x16_0_1_2_3_4),
    StableHlo.TRef.binary (.of main_arg1 : StableHlo.TRef sig ⟨S4096x2x16x16x16, .f32⟩) (.of main_call1_v4 : StableHlo.TRef sig ⟨S4096x2x16x16x16, .f32⟩) (.of main_call1_v5 : StableHlo.TRef sig ⟨S4096x2x16x16x16, .f32⟩) subf,
    StableHlo.TRef.unary (.of main_call1_v5 : StableHlo.TRef sig ⟨S4096x2x16x16x16, .f32⟩) (.of main_call1_v6 : StableHlo.TRef sig ⟨S4096x2x16x16x16, .f32⟩) Host.exp,
    StableHlo.TRef.nullary (.of main_call1_cst_1 : StableHlo.TRef sig ⟨S_, .f32⟩) (constant S_ .f32 0x00000000#32),
    StableHlo.TRef.binary (.of main_call1_v6 : StableHlo.TRef sig ⟨S4096x2x16x16x16, .f32⟩) (.of main_call1_cst_1 : StableHlo.TRef sig ⟨S_, .f32⟩) (.of main_call1_v7 : StableHlo.TRef sig ⟨S4096x16x16x16, .f32⟩) (fun x v => Host.reduceAdd x v reducesTo_S4096x2x16x16x16_S4096x16x16x16_d1 h_S_),
    StableHlo.TRef.unary (.of main_call1_v7 : StableHlo.TRef sig ⟨S4096x16x16x16, .f32⟩) (.of main_call1_v8 : StableHlo.TRef sig ⟨S4096x1x16x16x16, .f32⟩) (broadcastInDim S4096x1x16x16x16 ![0, 2, 3, 4] bcast_S4096x16x16x16_S4096x1x16x16x16_0_2_3_4),
    StableHlo.TRef.unary (.of main_call1_v8 : StableHlo.TRef sig ⟨S4096x1x16x16x16, .f32⟩) (.of main_call1_v9 : StableHlo.TRef sig ⟨S4096x1x16x16x16, .f32⟩) Host.log,
    StableHlo.TRef.unary (.of main_call1_v9 : StableHlo.TRef sig ⟨S4096x1x16x16x16, .f32⟩) (.of main_call1_v10 : StableHlo.TRef sig ⟨S4096x2x16x16x16, .f32⟩) (broadcastInDim S4096x2x16x16x16 ![0, 1, 2, 3, 4] bcast_S4096x1x16x16x16_S4096x2x16x16x16_0_1_2_3_4),
    StableHlo.TRef.binary (.of main_call1_v5 : StableHlo.TRef sig ⟨S4096x2x16x16x16, .f32⟩) (.of main_call1_v10 : StableHlo.TRef sig ⟨S4096x2x16x16x16, .f32⟩) (.of main_v7 : StableHlo.TRef sig ⟨S4096x2x16x16x16, .f32⟩) subf ]

abbrev st4 : List (HloOp τ sig (Elt F)) :=
  [ StableHlo.reshape main_v7 main_v8 rfl shapeCasts_S4096x2x16x16x16_S4096x2x4096,
    StableHlo.unary main_v6 main_v9 (broadcastInDim S4096x1x4096 ![0, 2] bcast_S4096x4096_S4096x1x4096_0_2 : (⟨S4096x4096, .i32⟩ : BufTy).Contents (Elt F) → (⟨S4096x1x4096, .i32⟩ : BufTy).Contents (Elt F)) ]

abbrev st5 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S4096x1x4096, .i32⟩) (broadcastInDim S4096x1x4096 ![] bcast_S_S4096x1x4096),
    StableHlo.TRef.binary (.of main_v9 : StableHlo.TRef sig ⟨S4096x1x4096, .i32⟩) (.of main_call2_v0 : StableHlo.TRef sig ⟨S4096x1x4096, .i32⟩) (.of main_call2_v1 : StableHlo.TRef sig ⟨S4096x1x4096, .i1⟩) (cmpi .slt),
    StableHlo.TRef.nullary (.of main_call2_c_0 : StableHlo.TRef sig ⟨S_, .i32⟩) (constantI S_ 32 2#32),
    StableHlo.TRef.unary (.of main_call2_c_0 : StableHlo.TRef sig ⟨S_, .i32⟩) (.of main_call2_v2 : StableHlo.TRef sig ⟨S4096x1x4096, .i32⟩) (broadcastInDim S4096x1x4096 ![] bcast_S_S4096x1x4096),
    StableHlo.TRef.binary (.of main_v9 : StableHlo.TRef sig ⟨S4096x1x4096, .i32⟩) (.of main_call2_v2 : StableHlo.TRef sig ⟨S4096x1x4096, .i32⟩) (.of main_call2_v3 : StableHlo.TRef sig ⟨S4096x1x4096, .i32⟩) addi,
    StableHlo.TRef.ternary (.of main_call2_v1 : StableHlo.TRef sig ⟨S4096x1x4096, .i1⟩) (.of main_call2_v3 : StableHlo.TRef sig ⟨S4096x1x4096, .i32⟩) (.of main_v9 : StableHlo.TRef sig ⟨S4096x1x4096, .i32⟩) (.of main_call2_v4 : StableHlo.TRef sig ⟨S4096x1x4096, .i32⟩) select,
    StableHlo.TRef.reshape (.of main_call2_v4 : StableHlo.TRef sig ⟨S4096x1x4096, .i32⟩) (.of main_call2_v5 : StableHlo.TRef sig ⟨S4096x1x4096x1, .i32⟩) rfl shapeCasts_S4096x1x4096_S4096x1x4096x1,
    StableHlo.TRef.nullary (.of main_call2_c_1 : StableHlo.TRef sig ⟨S1, .i32⟩) (constantI S1 32 1#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S4096x1x4096x1, .i32⟩) (broadcastInDim S4096x1x4096x1 ![] bcast_S_S4096x1x4096x1),
    StableHlo.TRef.binary (.of main_call2_v5 : StableHlo.TRef sig ⟨S4096x1x4096x1, .i32⟩) (.of main_call2_v6 : StableHlo.TRef sig ⟨S4096x1x4096x1, .i32⟩) (.of main_call2_v7 : StableHlo.TRef sig ⟨S4096x1x4096x1, .i1⟩) (cmpi .sge),
    StableHlo.TRef.unary (.of main_call2_c_1 : StableHlo.TRef sig ⟨S1, .i32⟩) (.of main_call2_v8 : StableHlo.TRef sig ⟨S1x1x1x1, .i32⟩) (broadcastInDim S1x1x1x1 ![3] bcast_S1_S1x1x1x1_3),
    StableHlo.TRef.unary (.of main_call2_v8 : StableHlo.TRef sig ⟨S1x1x1x1, .i32⟩) (.of main_call2_v9 : StableHlo.TRef sig ⟨S4096x1x4096x1, .i32⟩) (broadcastInDim S4096x1x4096x1 ![0, 1, 2, 3] bcast_S1x1x1x1_S4096x1x4096x1_0_1_2_3),
    StableHlo.TRef.binary (.of main_call2_v5 : StableHlo.TRef sig ⟨S4096x1x4096x1, .i32⟩) (.of main_call2_v9 : StableHlo.TRef sig ⟨S4096x1x4096x1, .i32⟩) (.of main_call2_v10 : StableHlo.TRef sig ⟨S4096x1x4096x1, .i1⟩) (cmpi .sle),
    StableHlo.TRef.binary (.of main_call2_v7 : StableHlo.TRef sig ⟨S4096x1x4096x1, .i1⟩) (.of main_call2_v10 : StableHlo.TRef sig ⟨S4096x1x4096x1, .i1⟩) (.of main_call2_v11 : StableHlo.TRef sig ⟨S4096x1x4096x1, .i1⟩) andi,
    StableHlo.TRef.nullary (.of main_call2_c_3 : StableHlo.TRef sig ⟨S_, .i1⟩) (constantI S_ 1 1#1),
    StableHlo.TRef.binary (.of main_call2_v11 : StableHlo.TRef sig ⟨S4096x1x4096x1, .i1⟩) (.of main_call2_c_3 : StableHlo.TRef sig ⟨S_, .i1⟩) (.of main_call2_v12 : StableHlo.TRef sig ⟨S4096x1x4096, .i1⟩) (fun x v => Host.reduce IntOp.andi x v reducesTo_S4096x1x4096x1_S4096x1x4096_d3 h_S_),
    StableHlo.TRef.binary (.of main_v8 : StableHlo.TRef sig ⟨S4096x2x4096, .f32⟩) (.of main_call2_v5 : StableHlo.TRef sig ⟨S4096x1x4096x1, .i32⟩) (.of main_call2_v13 : StableHlo.TRef sig ⟨S4096x1x4096, .f32⟩) (fun x i => Host.gather gather_S4096x2x4096_S4096x1x4096x1_S4096x1x4096_n_1_02_02_1_3_111 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S4096x1x4096, .f32⟩) (broadcastInDim S4096x1x4096 ![] bcast_S_S4096x1x4096),
    StableHlo.TRef.ternary (.of main_call2_v12 : StableHlo.TRef sig ⟨S4096x1x4096, .i1⟩) (.of main_call2_v13 : StableHlo.TRef sig ⟨S4096x1x4096, .f32⟩) (.of main_call2_v14 : StableHlo.TRef sig ⟨S4096x1x4096, .f32⟩) (.of main_v10 : StableHlo.TRef sig ⟨S4096x1x4096, .f32⟩) select ]

abbrev st6 : List (HloOp τ sig (Elt F)) :=
  [ StableHlo.reshape main_v10 main_v11 rfl shapeCasts_S4096x1x4096_S4096x4096,
    StableHlo.unary main_v11 main_v12 (Host.negf : (⟨S4096x4096, .f32⟩ : BufTy).Contents (Elt F) → (⟨S4096x4096, .f32⟩ : BufTy).Contents (Elt F)),
    StableHlo.nullary main_cst (constant S_ .f32 0x00000000#32),
    StableHlo.binary main_v12 main_cst main_v13 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_1 (constant S_ .f32 0x45800000#32),
    StableHlo.unary main_cst_1 main_v14 (broadcastInDim S4096 ![] bcast_S_S4096 : (⟨S_, .f32⟩ : BufTy).Contents (Elt F) → (⟨S4096, .f32⟩ : BufTy).Contents (Elt F)),
    StableHlo.binary main_v13 main_v14 main_v15 (Host.divf : (⟨S4096, .f32⟩ : BufTy).Contents (Elt F) → (⟨S4096, .f32⟩ : BufTy).Contents (Elt F) → (⟨S4096, .f32⟩ : BufTy).Contents (Elt F)),
    StableHlo.nullary main_cst_2 (constant S_ .f32 0x00000000#32),
    StableHlo.binary main_v15 main_cst_2 main_v16 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.reshape main_v3 main_v17 rfl shapeCasts_S256x256x256_S8x32x8x32x8x32,
    StableHlo.unary main_v17 main_v18 ((transpose S8x8x8x32x32x32 [0, 2, 4, 1, 3, 5] · transposes_S8x32x8x32x8x32_S8x8x8x32x32x32_0_2_4_1_3_5) : (⟨S8x32x8x32x8x32, .i32⟩ : BufTy).Contents (Elt F) → (⟨S8x8x8x32x32x32, .i32⟩ : BufTy).Contents (Elt F)),
    StableHlo.reshape main_v18 main_v19 rfl shapeCasts_S8x8x8x32x32x32_S512x32768,
    StableHlo.nullary main_c_3 (constantI S_ 32 2147483647#32),
    StableHlo.binary main_v19 main_c_3 main_v20 ((fun x v => Host.reduce IntOp.minsi x v reducesTo_S512x32768_S512_d1 h_S_) : (⟨S512x32768, .i32⟩ : BufTy).Contents (Elt F) → (⟨S_, .i32⟩ : BufTy).Contents (Elt F) → (⟨S512, .i32⟩ : BufTy).Contents (Elt F)),
    StableHlo.nullary main_c_4 (constantI S_ 32 2147483648#32),
    StableHlo.binary main_v19 main_c_4 main_v21 ((fun x v => Host.reduce IntOp.maxsi x v reducesTo_S512x32768_S512_d1 h_S_) : (⟨S512x32768, .i32⟩ : BufTy).Contents (Elt F) → (⟨S_, .i32⟩ : BufTy).Contents (Elt F) → (⟨S512, .i32⟩ : BufTy).Contents (Elt F)),
    StableHlo.binary main_v21 main_v20 main_v22 (cmpi .sgt : (⟨S512, .i32⟩ : BufTy).Contents (Elt F) → (⟨S512, .i32⟩ : BufTy).Contents (Elt F) → (⟨S512, .i1⟩ : BufTy).Contents (Elt F)),
    StableHlo.nullary main_c_5 (constantI S_ 32 2#32) ]

abbrev st7 : List (HloOp τ sig (Elt F)) :=
  [ StableHlo.TRef.unary (.of main_c_5 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S512, .i32⟩) (broadcastInDim S512 ![] bcast_S_S512),
    StableHlo.TRef.ternary (.of main_v22 : StableHlo.TRef sig ⟨S512, .i1⟩) (.of main_call3_v1 : StableHlo.TRef sig ⟨S512, .i32⟩) (.of main_v20 : StableHlo.TRef sig ⟨S512, .i32⟩) (.of main_v23 : StableHlo.TRef sig ⟨S512, .i32⟩) select ]

abbrev st8 : List (HloOp τ sig (Elt F)) :=
  [ StableHlo.TRef.nullary (.of main_call4_cst : StableHlo.TRef sig ⟨S_, .f32⟩) (constant S_ .f32 0xFF800000#32),
    StableHlo.TRef.binary (.of main_arg2 : StableHlo.TRef sig ⟨S512x3, .f32⟩) (.of main_call4_cst : StableHlo.TRef sig ⟨S_, .f32⟩) (.of main_call4_v0 : StableHlo.TRef sig ⟨S512, .f32⟩) (fun x v => Host.reduce FloatOps.maximumf x v reducesTo_S512x3_S512_d1 h_S_),
    StableHlo.TRef.nullary (.of main_call4_cst_0 : StableHlo.TRef sig ⟨S_, .f32⟩) (constant S_ .f32 0xFF800000#32),
    StableHlo.TRef.unary (.of main_call4_cst_0 : StableHlo.TRef sig ⟨S_, .f32⟩) (.of main_call4_v1 : StableHlo.TRef sig ⟨S512, .f32⟩) (broadcastInDim S512 ![] bcast_S_S512),
    StableHlo.TRef.binary (.of main_call4_v1 : StableHlo.TRef sig ⟨S512, .f32⟩) (.of main_call4_v0 : StableHlo.TRef sig ⟨S512, .f32⟩) (.of main_call4_v2 : StableHlo.TRef sig ⟨S512, .f32⟩) maximumf,
    StableHlo.TRef.unary (.of main_call4_v2 : StableHlo.TRef sig ⟨S512, .f32⟩) (.of main_call4_v3 : StableHlo.TRef sig ⟨S512x1, .f32⟩) (broadcastInDim S512x1 ![0] bcast_S512_S512x1_0),
    StableHlo.TRef.unary (.of main_call4_v3 : StableHlo.TRef sig ⟨S512x1, .f32⟩) (.of main_call4_v4 : StableHlo.TRef sig ⟨S512x3, .f32⟩) (broadcastInDim S512x3 ![0, 1] bcast_S512x1_S512x3_0_1),
    StableHlo.TRef.binary (.of main_arg2 : StableHlo.TRef sig ⟨S512x3, .f32⟩) (.of main_call4_v4 : StableHlo.TRef sig ⟨S512x3, .f32⟩) (.of main_call4_v5 : StableHlo.TRef sig ⟨S512x3, .f32⟩) subf,
    StableHlo.TRef.unary (.of main_call4_v5 : StableHlo.TRef sig ⟨S512x3, .f32⟩) (.of main_call4_v6 : StableHlo.TRef sig ⟨S512x3, .f32⟩) Host.exp,
    StableHlo.TRef.nullary (.of main_call4_cst_1 : StableHlo.TRef sig ⟨S_, .f32⟩) (constant S_ .f32 0x00000000#32),
    StableHlo.TRef.binary (.of main_call4_v6 : StableHlo.TRef sig ⟨S512x3, .f32⟩) (.of main_call4_cst_1 : StableHlo.TRef sig ⟨S_, .f32⟩) (.of main_call4_v7 : StableHlo.TRef sig ⟨S512, .f32⟩) (fun x v => Host.reduceAdd x v reducesTo_S512x3_S512_d1 h_S_),
    StableHlo.TRef.unary (.of main_call4_v7 : StableHlo.TRef sig ⟨S512, .f32⟩) (.of main_call4_v8 : StableHlo.TRef sig ⟨S512x1, .f32⟩) (broadcastInDim S512x1 ![0] bcast_S512_S512x1_0),
    StableHlo.TRef.unary (.of main_call4_v8 : StableHlo.TRef sig ⟨S512x1, .f32⟩) (.of main_call4_v9 : StableHlo.TRef sig ⟨S512x1, .f32⟩) Host.log,
    StableHlo.TRef.unary (.of main_call4_v9 : StableHlo.TRef sig ⟨S512x1, .f32⟩) (.of main_call4_v10 : StableHlo.TRef sig ⟨S512x3, .f32⟩) (broadcastInDim S512x3 ![0, 1] bcast_S512x1_S512x3_0_1),
    StableHlo.TRef.binary (.of main_call4_v5 : StableHlo.TRef sig ⟨S512x3, .f32⟩) (.of main_call4_v10 : StableHlo.TRef sig ⟨S512x3, .f32⟩) (.of main_v24 : StableHlo.TRef sig ⟨S512x3, .f32⟩) subf ]

abbrev st9 : List (HloOp τ sig (Elt F)) :=
  [ StableHlo.unary main_v23 main_v25 (broadcastInDim S512x1 ![0] bcast_S512_S512x1_0 : (⟨S512, .i32⟩ : BufTy).Contents (Elt F) → (⟨S512x1, .i32⟩ : BufTy).Contents (Elt F)) ]

abbrev st10 : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S512x1, .i32⟩) (broadcastInDim S512x1 ![] bcast_S_S512x1),
    StableHlo.TRef.binary (.of main_v25 : StableHlo.TRef sig ⟨S512x1, .i32⟩) (.of main_call5_v0 : StableHlo.TRef sig ⟨S512x1, .i32⟩) (.of main_call5_v1 : StableHlo.TRef sig ⟨S512x1, .i1⟩) (cmpi .slt),
    StableHlo.TRef.nullary (.of main_call5_c_0 : StableHlo.TRef sig ⟨S_, .i32⟩) (constantI S_ 32 3#32),
    StableHlo.TRef.unary (.of main_call5_c_0 : StableHlo.TRef sig ⟨S_, .i32⟩) (.of main_call5_v2 : StableHlo.TRef sig ⟨S512x1, .i32⟩) (broadcastInDim S512x1 ![] bcast_S_S512x1),
    StableHlo.TRef.binary (.of main_v25 : StableHlo.TRef sig ⟨S512x1, .i32⟩) (.of main_call5_v2 : StableHlo.TRef sig ⟨S512x1, .i32⟩) (.of main_call5_v3 : StableHlo.TRef sig ⟨S512x1, .i32⟩) addi,
    StableHlo.TRef.ternary (.of main_call5_v1 : StableHlo.TRef sig ⟨S512x1, .i1⟩) (.of main_call5_v3 : StableHlo.TRef sig ⟨S512x1, .i32⟩) (.of main_v25 : StableHlo.TRef sig ⟨S512x1, .i32⟩) (.of main_call5_v4 : StableHlo.TRef sig ⟨S512x1, .i32⟩) select,
    StableHlo.TRef.reshape (.of main_call5_v4 : StableHlo.TRef sig ⟨S512x1, .i32⟩) (.of main_call5_v5 : StableHlo.TRef sig ⟨S512x1x1, .i32⟩) rfl shapeCasts_S512x1_S512x1x1,
    StableHlo.TRef.nullary (.of main_call5_c_1 : StableHlo.TRef sig ⟨S1, .i32⟩) (constantI S1 32 2#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S512x1x1, .i32⟩) (broadcastInDim S512x1x1 ![] bcast_S_S512x1x1),
    StableHlo.TRef.binary (.of main_call5_v5 : StableHlo.TRef sig ⟨S512x1x1, .i32⟩) (.of main_call5_v6 : StableHlo.TRef sig ⟨S512x1x1, .i32⟩) (.of main_call5_v7 : StableHlo.TRef sig ⟨S512x1x1, .i1⟩) (cmpi .sge),
    StableHlo.TRef.unary (.of main_call5_c_1 : StableHlo.TRef sig ⟨S1, .i32⟩) (.of main_call5_v8 : StableHlo.TRef sig ⟨S1x1x1, .i32⟩) (broadcastInDim S1x1x1 ![2] bcast_S1_S1x1x1_2),
    StableHlo.TRef.unary (.of main_call5_v8 : StableHlo.TRef sig ⟨S1x1x1, .i32⟩) (.of main_call5_v9 : StableHlo.TRef sig ⟨S512x1x1, .i32⟩) (broadcastInDim S512x1x1 ![0, 1, 2] bcast_S1x1x1_S512x1x1_0_1_2),
    StableHlo.TRef.binary (.of main_call5_v5 : StableHlo.TRef sig ⟨S512x1x1, .i32⟩) (.of main_call5_v9 : StableHlo.TRef sig ⟨S512x1x1, .i32⟩) (.of main_call5_v10 : StableHlo.TRef sig ⟨S512x1x1, .i1⟩) (cmpi .sle),
    StableHlo.TRef.binary (.of main_call5_v7 : StableHlo.TRef sig ⟨S512x1x1, .i1⟩) (.of main_call5_v10 : StableHlo.TRef sig ⟨S512x1x1, .i1⟩) (.of main_call5_v11 : StableHlo.TRef sig ⟨S512x1x1, .i1⟩) andi,
    StableHlo.TRef.nullary (.of main_call5_c_3 : StableHlo.TRef sig ⟨S_, .i1⟩) (constantI S_ 1 1#1),
    StableHlo.TRef.binary (.of main_call5_v11 : StableHlo.TRef sig ⟨S512x1x1, .i1⟩) (.of main_call5_c_3 : StableHlo.TRef sig ⟨S_, .i1⟩) (.of main_call5_v12 : StableHlo.TRef sig ⟨S512x1, .i1⟩) (fun x v => Host.reduce IntOp.andi x v reducesTo_S512x1x1_S512x1_d2 h_S_),
    StableHlo.TRef.binary (.of main_v24 : StableHlo.TRef sig ⟨S512x3, .f32⟩) (.of main_call5_v5 : StableHlo.TRef sig ⟨S512x1x1, .i32⟩) (.of main_call5_v13 : StableHlo.TRef sig ⟨S512x1, .f32⟩) (fun x i => Host.gather gather_S512x3_S512x1x1_S512x1_n_1_0_0_1_2_11 x i),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v14 : StableHlo.TRef sig ⟨S512x1, .f32⟩) (broadcastInDim S512x1 ![] bcast_S_S512x1),
    StableHlo.TRef.ternary (.of main_call5_v12 : StableHlo.TRef sig ⟨S512x1, .i1⟩) (.of main_call5_v13 : StableHlo.TRef sig ⟨S512x1, .f32⟩) (.of main_call5_v14 : StableHlo.TRef sig ⟨S512x1, .f32⟩) (.of main_v26 : StableHlo.TRef sig ⟨S512x1, .f32⟩) select ]

abbrev st11 : List (HloOp τ sig (Elt F)) :=
  [ StableHlo.reshape main_v26 main_v27 rfl shapeCasts_S512x1_S512,
    StableHlo.unary main_v27 main_v28 (Host.negf : (⟨S512, .f32⟩ : BufTy).Contents (Elt F) → (⟨S512, .f32⟩ : BufTy).Contents (Elt F)),
    StableHlo.nullary main_cst_6 (constant S_ .f32 0x47000000#32),
    StableHlo.unary main_cst_6 main_v29 (broadcastInDim S512 ![] bcast_S_S512 : (⟨S_, .f32⟩ : BufTy).Contents (Elt F) → (⟨S512, .f32⟩ : BufTy).Contents (Elt F)),
    StableHlo.binary main_v28 main_v29 main_v30 (mulf : (⟨S512, .f32⟩ : BufTy).Contents (Elt F) → (⟨S512, .f32⟩ : BufTy).Contents (Elt F) → (⟨S512, .f32⟩ : BufTy).Contents (Elt F)),
    StableHlo.nullary main_cst_7 (constant S_ .f32 0x00000000#32),
    StableHlo.binary main_v30 main_cst_7 main_v31 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.binary main_v16 main_v31 main_v32 (addf : (⟨S_, .f32⟩ : BufTy).Contents (Elt F) → (⟨S_, .f32⟩ : BufTy).Contents (Elt F) → (⟨S_, .f32⟩ : BufTy).Contents (Elt F)),
    StableHlo.reshape main_v3 main_v33 rfl shapeCasts_S256x256x256_S4x64x4x64x4x64,
    StableHlo.unary main_v33 main_v34 ((transpose S4x4x4x64x64x64 [0, 2, 4, 1, 3, 5] · transposes_S4x64x4x64x4x64_S4x4x4x64x64x64_0_2_4_1_3_5) : (⟨S4x64x4x64x4x64, .i32⟩ : BufTy).Contents (Elt F) → (⟨S4x4x4x64x64x64, .i32⟩ : BufTy).Contents (Elt F)),
    StableHlo.reshape main_v34 main_v35 rfl shapeCasts_S4x4x4x64x64x64_S64x262144,
    StableHlo.nullary main_c_8 (constantI S_ 32 2147483647#32),
    StableHlo.binary main_v35 main_c_8 main_v36 ((fun x v => Host.reduce IntOp.minsi x v reducesTo_S64x262144_S64_d1 h_S_) : (⟨S64x262144, .i32⟩ : BufTy).Contents (Elt F) → (⟨S_, .i32⟩ : BufTy).Contents (Elt F) → (⟨S64, .i32⟩ : BufTy).Contents (Elt F)),
    StableHlo.nullary main_c_9 (constantI S_ 32 2147483648#32),
    StableHlo.binary main_v35 main_c_9 main_v37 ((fun x v => Host.reduce IntOp.maxsi x v reducesTo_S64x262144_S64_d1 h_S_) : (⟨S64x262144, .i32⟩ : BufTy).Contents (Elt F) → (⟨S_, .i32⟩ : BufTy).Contents (Elt F) → (⟨S64, .i32⟩ : BufTy).Contents (Elt F)),
    StableHlo.binary main_v37 main_v36 main_v38 (cmpi .sgt : (⟨S64, .i32⟩ : BufTy).Contents (Elt F) → (⟨S64, .i32⟩ : BufTy).Contents (Elt F) → (⟨S64, .i1⟩ : BufTy).Contents (Elt F)),
    StableHlo.nullary main_c_10 (constantI S_ 32 2#32) ]

abbrev st12 : List (HloOp τ sig (Elt F)) :=
  [ StableHlo.TRef.unary (.of main_c_10 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S64, .i32⟩) (broadcastInDim S64 ![] bcast_S_S64),
    StableHlo.TRef.ternary (.of main_v38 : StableHlo.TRef sig ⟨S64, .i1⟩) (.of main_call6_v1 : StableHlo.TRef sig ⟨S64, .i32⟩) (.of main_v36 : StableHlo.TRef sig ⟨S64, .i32⟩) (.of main_v39 : StableHlo.TRef sig ⟨S64, .i32⟩) select ]

abbrev st13 : List (HloOp τ sig (Elt F)) :=
  [ StableHlo.TRef.nullary (.of main_call7_cst : StableHlo.TRef sig ⟨S_, .f32⟩) (constant S_ .f32 0xFF800000#32),
    StableHlo.TRef.binary (.of main_arg3 : StableHlo.TRef sig ⟨S64x3, .f32⟩) (.of main_call7_cst : StableHlo.TRef sig ⟨S_, .f32⟩) (.of main_call7_v0 : StableHlo.TRef sig ⟨S64, .f32⟩) (fun x v => Host.reduce FloatOps.maximumf x v reducesTo_S64x3_S64_d1 h_S_),
    StableHlo.TRef.nullary (.of main_call7_cst_0 : StableHlo.TRef sig ⟨S_, .f32⟩) (constant S_ .f32 0xFF800000#32),
    StableHlo.TRef.unary (.of main_call7_cst_0 : StableHlo.TRef sig ⟨S_, .f32⟩) (.of main_call7_v1 : StableHlo.TRef sig ⟨S64, .f32⟩) (broadcastInDim S64 ![] bcast_S_S64),
    StableHlo.TRef.binary (.of main_call7_v1 : StableHlo.TRef sig ⟨S64, .f32⟩) (.of main_call7_v0 : StableHlo.TRef sig ⟨S64, .f32⟩) (.of main_call7_v2 : StableHlo.TRef sig ⟨S64, .f32⟩) maximumf,
    StableHlo.TRef.unary (.of main_call7_v2 : StableHlo.TRef sig ⟨S64, .f32⟩) (.of main_call7_v3 : StableHlo.TRef sig ⟨S64x1, .f32⟩) (broadcastInDim S64x1 ![0] bcast_S64_S64x1_0),
    StableHlo.TRef.unary (.of main_call7_v3 : StableHlo.TRef sig ⟨S64x1, .f32⟩) (.of main_call7_v4 : StableHlo.TRef sig ⟨S64x3, .f32⟩) (broadcastInDim S64x3 ![0, 1] bcast_S64x1_S64x3_0_1),
    StableHlo.TRef.binary (.of main_arg3 : StableHlo.TRef sig ⟨S64x3, .f32⟩) (.of main_call7_v4 : StableHlo.TRef sig ⟨S64x3, .f32⟩) (.of main_call7_v5 : StableHlo.TRef sig ⟨S64x3, .f32⟩) subf,
    StableHlo.TRef.unary (.of main_call7_v5 : StableHlo.TRef sig ⟨S64x3, .f32⟩) (.of main_call7_v6 : StableHlo.TRef sig ⟨S64x3, .f32⟩) Host.exp,
    StableHlo.TRef.nullary (.of main_call7_cst_1 : StableHlo.TRef sig ⟨S_, .f32⟩) (constant S_ .f32 0x00000000#32),
    StableHlo.TRef.binary (.of main_call7_v6 : StableHlo.TRef sig ⟨S64x3, .f32⟩) (.of main_call7_cst_1 : StableHlo.TRef sig ⟨S_, .f32⟩) (.of main_call7_v7 : StableHlo.TRef sig ⟨S64, .f32⟩) (fun x v => Host.reduceAdd x v reducesTo_S64x3_S64_d1 h_S_),
    StableHlo.TRef.unary (.of main_call7_v7 : StableHlo.TRef sig ⟨S64, .f32⟩) (.of main_call7_v8 : StableHlo.TRef sig ⟨S64x1, .f32⟩) (broadcastInDim S64x1 ![0] bcast_S64_S64x1_0),
    StableHlo.TRef.unary (.of main_call7_v8 : StableHlo.TRef sig ⟨S64x1, .f32⟩) (.of main_call7_v9 : StableHlo.TRef sig ⟨S64x1, .f32⟩) Host.log,
    StableHlo.TRef.unary (.of main_call7_v9 : StableHlo.TRef sig ⟨S64x1, .f32⟩) (.of main_call7_v10 : StableHlo.TRef sig ⟨S64x3, .f32⟩) (broadcastInDim S64x3 ![0, 1] bcast_S64x1_S64x3_0_1),
    StableHlo.TRef.binary (.of main_call7_v5 : StableHlo.TRef sig ⟨S64x3, .f32⟩) (.of main_call7_v10 : StableHlo.TRef sig ⟨S64x3, .f32⟩) (.of main_v40 : StableHlo.TRef sig ⟨S64x3, .f32⟩) subf ]

abbrev st14 : List (HloOp τ sig (Elt F)) :=
  [ StableHlo.unary main_v39 main_v41 (broadcastInDim S64x1 ![0] bcast_S64_S64x1_0 : (⟨S64, .i32⟩ : BufTy).Contents (Elt F) → (⟨S64x1, .i32⟩ : BufTy).Contents (Elt F)) ]

abbrev st15 : List (HloOp τ sig (Elt F)) :=
  [ StableHlo.TRef.nullary (.of main_call8_c : StableHlo.TRef sig ⟨S_, .i32⟩) (constantI S_ 32 0#32),
    StableHlo.TRef.unary (.of main_call8_c : StableHlo.TRef sig ⟨S_, .i32⟩) (.of main_call8_v0 : StableHlo.TRef sig ⟨S64x1, .i32⟩) (broadcastInDim S64x1 ![] bcast_S_S64x1),
    StableHlo.TRef.binary (.of main_v41 : StableHlo.TRef sig ⟨S64x1, .i32⟩) (.of main_call8_v0 : StableHlo.TRef sig ⟨S64x1, .i32⟩) (.of main_call8_v1 : StableHlo.TRef sig ⟨S64x1, .i1⟩) (cmpi .slt),
    StableHlo.TRef.nullary (.of main_call8_c_0 : StableHlo.TRef sig ⟨S_, .i32⟩) (constantI S_ 32 3#32),
    StableHlo.TRef.unary (.of main_call8_c_0 : StableHlo.TRef sig ⟨S_, .i32⟩) (.of main_call8_v2 : StableHlo.TRef sig ⟨S64x1, .i32⟩) (broadcastInDim S64x1 ![] bcast_S_S64x1),
    StableHlo.TRef.binary (.of main_v41 : StableHlo.TRef sig ⟨S64x1, .i32⟩) (.of main_call8_v2 : StableHlo.TRef sig ⟨S64x1, .i32⟩) (.of main_call8_v3 : StableHlo.TRef sig ⟨S64x1, .i32⟩) addi,
    StableHlo.TRef.ternary (.of main_call8_v1 : StableHlo.TRef sig ⟨S64x1, .i1⟩) (.of main_call8_v3 : StableHlo.TRef sig ⟨S64x1, .i32⟩) (.of main_v41 : StableHlo.TRef sig ⟨S64x1, .i32⟩) (.of main_call8_v4 : StableHlo.TRef sig ⟨S64x1, .i32⟩) select,
    StableHlo.TRef.reshape (.of main_call8_v4 : StableHlo.TRef sig ⟨S64x1, .i32⟩) (.of main_call8_v5 : StableHlo.TRef sig ⟨S64x1x1, .i32⟩) rfl shapeCasts_S64x1_S64x1x1,
    StableHlo.TRef.nullary (.of main_call8_c_1 : StableHlo.TRef sig ⟨S1, .i32⟩) (constantI S1 32 2#32),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v6 : StableHlo.TRef sig ⟨S64x1x1, .i32⟩) (broadcastInDim S64x1x1 ![] bcast_S_S64x1x1),
    StableHlo.TRef.binary (.of main_call8_v5 : StableHlo.TRef sig ⟨S64x1x1, .i32⟩) (.of main_call8_v6 : StableHlo.TRef sig ⟨S64x1x1, .i32⟩) (.of main_call8_v7 : StableHlo.TRef sig ⟨S64x1x1, .i1⟩) (cmpi .sge),
    StableHlo.TRef.unary (.of main_call8_c_1 : StableHlo.TRef sig ⟨S1, .i32⟩) (.of main_call8_v8 : StableHlo.TRef sig ⟨S1x1x1, .i32⟩) (broadcastInDim S1x1x1 ![2] bcast_S1_S1x1x1_2),
    StableHlo.TRef.unary (.of main_call8_v8 : StableHlo.TRef sig ⟨S1x1x1, .i32⟩) (.of main_call8_v9 : StableHlo.TRef sig ⟨S64x1x1, .i32⟩) (broadcastInDim S64x1x1 ![0, 1, 2] bcast_S1x1x1_S64x1x1_0_1_2),
    StableHlo.TRef.binary (.of main_call8_v5 : StableHlo.TRef sig ⟨S64x1x1, .i32⟩) (.of main_call8_v9 : StableHlo.TRef sig ⟨S64x1x1, .i32⟩) (.of main_call8_v10 : StableHlo.TRef sig ⟨S64x1x1, .i1⟩) (cmpi .sle),
    StableHlo.TRef.binary (.of main_call8_v7 : StableHlo.TRef sig ⟨S64x1x1, .i1⟩) (.of main_call8_v10 : StableHlo.TRef sig ⟨S64x1x1, .i1⟩) (.of main_call8_v11 : StableHlo.TRef sig ⟨S64x1x1, .i1⟩) andi,
    StableHlo.TRef.nullary (.of main_call8_c_3 : StableHlo.TRef sig ⟨S_, .i1⟩) (constantI S_ 1 1#1),
    StableHlo.TRef.binary (.of main_call8_v11 : StableHlo.TRef sig ⟨S64x1x1, .i1⟩) (.of main_call8_c_3 : StableHlo.TRef sig ⟨S_, .i1⟩) (.of main_call8_v12 : StableHlo.TRef sig ⟨S64x1, .i1⟩) (fun x v => Host.reduce IntOp.andi x v reducesTo_S64x1x1_S64x1_d2 h_S_),
    StableHlo.TRef.binary (.of main_v40 : StableHlo.TRef sig ⟨S64x3, .f32⟩) (.of main_call8_v5 : StableHlo.TRef sig ⟨S64x1x1, .i32⟩) (.of main_call8_v13 : StableHlo.TRef sig ⟨S64x1, .f32⟩) (fun x i => Host.gather gather_S64x3_S64x1x1_S64x1_n_1_0_0_1_2_11 x i),
    StableHlo.TRef.nullary (.of main_call8_cst : StableHlo.TRef sig ⟨S_, .f32⟩) (constant S_ .f32 0x7FC00000#32),
    StableHlo.TRef.unary (.of main_call8_cst : StableHlo.TRef sig ⟨S_, .f32⟩) (.of main_call8_v14 : StableHlo.TRef sig ⟨S64x1, .f32⟩) (broadcastInDim S64x1 ![] bcast_S_S64x1),
    StableHlo.TRef.ternary (.of main_call8_v12 : StableHlo.TRef sig ⟨S64x1, .i1⟩) (.of main_call8_v13 : StableHlo.TRef sig ⟨S64x1, .f32⟩) (.of main_call8_v14 : StableHlo.TRef sig ⟨S64x1, .f32⟩) (.of main_v42 : StableHlo.TRef sig ⟨S64x1, .f32⟩) select ]

abbrev st16 : List (HloOp τ sig (Elt F)) :=
  [ StableHlo.reshape main_v42 main_v43 rfl shapeCasts_S64x1_S64,
    StableHlo.unary main_v43 main_v44 (Host.negf : (⟨S64, .f32⟩ : BufTy).Contents (Elt F) → (⟨S64, .f32⟩ : BufTy).Contents (Elt F)),
    StableHlo.nullary main_cst_11 (constant S_ .f32 0x48800000#32),
    StableHlo.unary main_cst_11 main_v45 (broadcastInDim S64 ![] bcast_S_S64 : (⟨S_, .f32⟩ : BufTy).Contents (Elt F) → (⟨S64, .f32⟩ : BufTy).Contents (Elt F)) ]

abbrev st17 : List (HloOp τ sig (Elt F)) :=
  [ StableHlo.binary main_v44 main_v45 main_v46 (mulf : (⟨S64, .f32⟩ : BufTy).Contents (Elt F) → (⟨S64, .f32⟩ : BufTy).Contents (Elt F) → (⟨S64, .f32⟩ : BufTy).Contents (Elt F)),
    StableHlo.nullary main_cst_12 (constant S_ .f32 0x00000000#32),
    StableHlo.binary main_v46 main_cst_12 main_v47 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.binary main_v32 main_v47 main_v48 (addf : (⟨S_, .f32⟩ : BufTy).Contents (Elt F) → (⟨S_, .f32⟩ : BufTy).Contents (Elt F) → (⟨S_, .f32⟩ : BufTy).Contents (Elt F)),
    StableHlo.reshape main_v3 main_v49 rfl shapeCasts_S256x256x256_S2x128x2x128x2x128,
    StableHlo.unary main_v49 main_v50 ((transpose S2x2x2x128x128x128 [0, 2, 4, 1, 3, 5] · transposes_S2x128x2x128x2x128_S2x2x2x128x128x128_0_2_4_1_3_5) : (⟨S2x128x2x128x2x128, .i32⟩ : BufTy).Contents (Elt F) → (⟨S2x2x2x128x128x128, .i32⟩ : BufTy).Contents (Elt F)),
    StableHlo.reshape main_v50 main_v51 rfl shapeCasts_S2x2x2x128x128x128_S8x2097152,
    StableHlo.nullary main_c_13 (constantI S_ 32 2147483647#32),
    StableHlo.binary main_v51 main_c_13 main_v52 ((fun x v => Host.reduce IntOp.minsi x v reducesTo_S8x2097152_S8_d1 h_S_) : (⟨S8x2097152, .i32⟩ : BufTy).Contents (Elt F) → (⟨S_, .i32⟩ : BufTy).Contents (Elt F) → (⟨S8, .i32⟩ : BufTy).Contents (Elt F)),
    StableHlo.nullary main_c_14 (constantI S_ 32 2147483648#32),
    StableHlo.binary main_v51 main_c_14 main_v53 ((fun x v => Host.reduce IntOp.maxsi x v reducesTo_S8x2097152_S8_d1 h_S_) : (⟨S8x2097152, .i32⟩ : BufTy).Contents (Elt F) → (⟨S_, .i32⟩ : BufTy).Contents (Elt F) → (⟨S8, .i32⟩ : BufTy).Contents (Elt F)),
    StableHlo.binary main_v53 main_v52 main_v54 (cmpi .sgt : (⟨S8, .i32⟩ : BufTy).Contents (Elt F) → (⟨S8, .i32⟩ : BufTy).Contents (Elt F) → (⟨S8, .i1⟩ : BufTy).Contents (Elt F)),
    StableHlo.nullary main_c_15 (constantI S_ 32 2#32) ]

abbrev st18 : List (HloOp τ sig (Elt F)) :=
  [ StableHlo.TRef.unary (.of main_c_15 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S8, .i32⟩) (broadcastInDim S8 ![] bcast_S_S8),
    StableHlo.TRef.ternary (.of main_v54 : StableHlo.TRef sig ⟨S8, .i1⟩) (.of main_call9_v1 : StableHlo.TRef sig ⟨S8, .i32⟩) (.of main_v52 : StableHlo.TRef sig ⟨S8, .i32⟩) (.of main_v55 : StableHlo.TRef sig ⟨S8, .i32⟩) select ]

abbrev st19 : List (HloOp τ sig (Elt F)) :=
  [ StableHlo.TRef.nullary (.of main_call10_cst : StableHlo.TRef sig ⟨S_, .f32⟩) (constant S_ .f32 0xFF800000#32),
    StableHlo.TRef.binary (.of main_arg4 : StableHlo.TRef sig ⟨S8x3, .f32⟩) (.of main_call10_cst : StableHlo.TRef sig ⟨S_, .f32⟩) (.of main_call10_v0 : StableHlo.TRef sig ⟨S8, .f32⟩) (fun x v => Host.reduce FloatOps.maximumf x v reducesTo_S8x3_S8_d1 h_S_),
    StableHlo.TRef.nullary (.of main_call10_cst_0 : StableHlo.TRef sig ⟨S_, .f32⟩) (constant S_ .f32 0xFF800000#32),
    StableHlo.TRef.unary (.of main_call10_cst_0 : StableHlo.TRef sig ⟨S_, .f32⟩) (.of main_call10_v1 : StableHlo.TRef sig ⟨S8, .f32⟩) (broadcastInDim S8 ![] bcast_S_S8),
    StableHlo.TRef.binary (.of main_call10_v1 : StableHlo.TRef sig ⟨S8, .f32⟩) (.of main_call10_v0 : StableHlo.TRef sig ⟨S8, .f32⟩) (.of main_call10_v2 : StableHlo.TRef sig ⟨S8, .f32⟩) maximumf,
    StableHlo.TRef.unary (.of main_call10_v2 : StableHlo.TRef sig ⟨S8, .f32⟩) (.of main_call10_v3 : StableHlo.TRef sig ⟨S8x1, .f32⟩) (broadcastInDim S8x1 ![0] bcast_S8_S8x1_0),
    StableHlo.TRef.unary (.of main_call10_v3 : StableHlo.TRef sig ⟨S8x1, .f32⟩) (.of main_call10_v4 : StableHlo.TRef sig ⟨S8x3, .f32⟩) (broadcastInDim S8x3 ![0, 1] bcast_S8x1_S8x3_0_1),
    StableHlo.TRef.binary (.of main_arg4 : StableHlo.TRef sig ⟨S8x3, .f32⟩) (.of main_call10_v4 : StableHlo.TRef sig ⟨S8x3, .f32⟩) (.of main_call10_v5 : StableHlo.TRef sig ⟨S8x3, .f32⟩) subf,
    StableHlo.TRef.unary (.of main_call10_v5 : StableHlo.TRef sig ⟨S8x3, .f32⟩) (.of main_call10_v6 : StableHlo.TRef sig ⟨S8x3, .f32⟩) Host.exp,
    StableHlo.TRef.nullary (.of main_call10_cst_1 : StableHlo.TRef sig ⟨S_, .f32⟩) (constant S_ .f32 0x00000000#32),
    StableHlo.TRef.binary (.of main_call10_v6 : StableHlo.TRef sig ⟨S8x3, .f32⟩) (.of main_call10_cst_1 : StableHlo.TRef sig ⟨S_, .f32⟩) (.of main_call10_v7 : StableHlo.TRef sig ⟨S8, .f32⟩) (fun x v => Host.reduceAdd x v reducesTo_S8x3_S8_d1 h_S_),
    StableHlo.TRef.unary (.of main_call10_v7 : StableHlo.TRef sig ⟨S8, .f32⟩) (.of main_call10_v8 : StableHlo.TRef sig ⟨S8x1, .f32⟩) (broadcastInDim S8x1 ![0] bcast_S8_S8x1_0),
    StableHlo.TRef.unary (.of main_call10_v8 : StableHlo.TRef sig ⟨S8x1, .f32⟩) (.of main_call10_v9 : StableHlo.TRef sig ⟨S8x1, .f32⟩) Host.log,
    StableHlo.TRef.unary (.of main_call10_v9 : StableHlo.TRef sig ⟨S8x1, .f32⟩) (.of main_call10_v10 : StableHlo.TRef sig ⟨S8x3, .f32⟩) (broadcastInDim S8x3 ![0, 1] bcast_S8x1_S8x3_0_1),
    StableHlo.TRef.binary (.of main_call10_v5 : StableHlo.TRef sig ⟨S8x3, .f32⟩) (.of main_call10_v10 : StableHlo.TRef sig ⟨S8x3, .f32⟩) (.of main_v56 : StableHlo.TRef sig ⟨S8x3, .f32⟩) subf ]

abbrev st20 : List (HloOp τ sig (Elt F)) :=
  [ StableHlo.unary main_v55 main_v57 (broadcastInDim S8x1 ![0] bcast_S8_S8x1_0 : (⟨S8, .i32⟩ : BufTy).Contents (Elt F) → (⟨S8x1, .i32⟩ : BufTy).Contents (Elt F)) ]

abbrev st21 : List (HloOp τ sig (Elt F)) :=
  [ StableHlo.TRef.nullary (.of main_call11_c : StableHlo.TRef sig ⟨S_, .i32⟩) (constantI S_ 32 0#32),
    StableHlo.TRef.unary (.of main_call11_c : StableHlo.TRef sig ⟨S_, .i32⟩) (.of main_call11_v0 : StableHlo.TRef sig ⟨S8x1, .i32⟩) (broadcastInDim S8x1 ![] bcast_S_S8x1),
    StableHlo.TRef.binary (.of main_v57 : StableHlo.TRef sig ⟨S8x1, .i32⟩) (.of main_call11_v0 : StableHlo.TRef sig ⟨S8x1, .i32⟩) (.of main_call11_v1 : StableHlo.TRef sig ⟨S8x1, .i1⟩) (cmpi .slt),
    StableHlo.TRef.nullary (.of main_call11_c_0 : StableHlo.TRef sig ⟨S_, .i32⟩) (constantI S_ 32 3#32),
    StableHlo.TRef.unary (.of main_call11_c_0 : StableHlo.TRef sig ⟨S_, .i32⟩) (.of main_call11_v2 : StableHlo.TRef sig ⟨S8x1, .i32⟩) (broadcastInDim S8x1 ![] bcast_S_S8x1),
    StableHlo.TRef.binary (.of main_v57 : StableHlo.TRef sig ⟨S8x1, .i32⟩) (.of main_call11_v2 : StableHlo.TRef sig ⟨S8x1, .i32⟩) (.of main_call11_v3 : StableHlo.TRef sig ⟨S8x1, .i32⟩) addi,
    StableHlo.TRef.ternary (.of main_call11_v1 : StableHlo.TRef sig ⟨S8x1, .i1⟩) (.of main_call11_v3 : StableHlo.TRef sig ⟨S8x1, .i32⟩) (.of main_v57 : StableHlo.TRef sig ⟨S8x1, .i32⟩) (.of main_call11_v4 : StableHlo.TRef sig ⟨S8x1, .i32⟩) select,
    StableHlo.TRef.reshape (.of main_call11_v4 : StableHlo.TRef sig ⟨S8x1, .i32⟩) (.of main_call11_v5 : StableHlo.TRef sig ⟨S8x1x1, .i32⟩) rfl shapeCasts_S8x1_S8x1x1,
    StableHlo.TRef.nullary (.of main_call11_c_1 : StableHlo.TRef sig ⟨S1, .i32⟩) (constantI S1 32 2#32),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v6 : StableHlo.TRef sig ⟨S8x1x1, .i32⟩) (broadcastInDim S8x1x1 ![] bcast_S_S8x1x1),
    StableHlo.TRef.binary (.of main_call11_v5 : StableHlo.TRef sig ⟨S8x1x1, .i32⟩) (.of main_call11_v6 : StableHlo.TRef sig ⟨S8x1x1, .i32⟩) (.of main_call11_v7 : StableHlo.TRef sig ⟨S8x1x1, .i1⟩) (cmpi .sge),
    StableHlo.TRef.unary (.of main_call11_c_1 : StableHlo.TRef sig ⟨S1, .i32⟩) (.of main_call11_v8 : StableHlo.TRef sig ⟨S1x1x1, .i32⟩) (broadcastInDim S1x1x1 ![2] bcast_S1_S1x1x1_2),
    StableHlo.TRef.unary (.of main_call11_v8 : StableHlo.TRef sig ⟨S1x1x1, .i32⟩) (.of main_call11_v9 : StableHlo.TRef sig ⟨S8x1x1, .i32⟩) (broadcastInDim S8x1x1 ![0, 1, 2] bcast_S1x1x1_S8x1x1_0_1_2),
    StableHlo.TRef.binary (.of main_call11_v5 : StableHlo.TRef sig ⟨S8x1x1, .i32⟩) (.of main_call11_v9 : StableHlo.TRef sig ⟨S8x1x1, .i32⟩) (.of main_call11_v10 : StableHlo.TRef sig ⟨S8x1x1, .i1⟩) (cmpi .sle),
    StableHlo.TRef.binary (.of main_call11_v7 : StableHlo.TRef sig ⟨S8x1x1, .i1⟩) (.of main_call11_v10 : StableHlo.TRef sig ⟨S8x1x1, .i1⟩) (.of main_call11_v11 : StableHlo.TRef sig ⟨S8x1x1, .i1⟩) andi,
    StableHlo.TRef.nullary (.of main_call11_c_3 : StableHlo.TRef sig ⟨S_, .i1⟩) (constantI S_ 1 1#1),
    StableHlo.TRef.binary (.of main_call11_v11 : StableHlo.TRef sig ⟨S8x1x1, .i1⟩) (.of main_call11_c_3 : StableHlo.TRef sig ⟨S_, .i1⟩) (.of main_call11_v12 : StableHlo.TRef sig ⟨S8x1, .i1⟩) (fun x v => Host.reduce IntOp.andi x v reducesTo_S8x1x1_S8x1_d2 h_S_),
    StableHlo.TRef.binary (.of main_v56 : StableHlo.TRef sig ⟨S8x3, .f32⟩) (.of main_call11_v5 : StableHlo.TRef sig ⟨S8x1x1, .i32⟩) (.of main_call11_v13 : StableHlo.TRef sig ⟨S8x1, .f32⟩) (fun x i => Host.gather gather_S8x3_S8x1x1_S8x1_n_1_0_0_1_2_11 x i),
    StableHlo.TRef.nullary (.of main_call11_cst : StableHlo.TRef sig ⟨S_, .f32⟩) (constant S_ .f32 0x7FC00000#32),
    StableHlo.TRef.unary (.of main_call11_cst : StableHlo.TRef sig ⟨S_, .f32⟩) (.of main_call11_v14 : StableHlo.TRef sig ⟨S8x1, .f32⟩) (broadcastInDim S8x1 ![] bcast_S_S8x1),
    StableHlo.TRef.ternary (.of main_call11_v12 : StableHlo.TRef sig ⟨S8x1, .i1⟩) (.of main_call11_v13 : StableHlo.TRef sig ⟨S8x1, .f32⟩) (.of main_call11_v14 : StableHlo.TRef sig ⟨S8x1, .f32⟩) (.of main_v58 : StableHlo.TRef sig ⟨S8x1, .f32⟩) select ]

abbrev st22 : List (HloOp τ sig (Elt F)) :=
  [ StableHlo.reshape main_v58 main_v59 rfl shapeCasts_S8x1_S8,
    StableHlo.unary main_v59 main_v60 (Host.negf : (⟨S8, .f32⟩ : BufTy).Contents (Elt F) → (⟨S8, .f32⟩ : BufTy).Contents (Elt F)),
    StableHlo.nullary main_cst_16 (constant S_ .f32 0x4A000000#32),
    StableHlo.unary main_cst_16 main_v61 (broadcastInDim S8 ![] bcast_S_S8 : (⟨S_, .f32⟩ : BufTy).Contents (Elt F) → (⟨S8, .f32⟩ : BufTy).Contents (Elt F)),
    StableHlo.binary main_v60 main_v61 main_v62 (mulf : (⟨S8, .f32⟩ : BufTy).Contents (Elt F) → (⟨S8, .f32⟩ : BufTy).Contents (Elt F) → (⟨S8, .f32⟩ : BufTy).Contents (Elt F)),
    StableHlo.nullary main_cst_17 (constant S_ .f32 0x00000000#32),
    StableHlo.binary main_v62 main_cst_17 main_v63 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.binary main_v48 main_v63 main_v64 (addf : (⟨S_, .f32⟩ : BufTy).Contents (Elt F) → (⟨S_, .f32⟩ : BufTy).Contents (Elt F) → (⟨S_, .f32⟩ : BufTy).Contents (Elt F)),
    StableHlo.reshape main_v3 main_v65 rfl shapeCasts_S256x256x256_S1x256x1x256x1x256,
    StableHlo.unary main_v65 main_v66 ((transpose S1x1x1x256x256x256 [0, 2, 4, 1, 3, 5] · transposes_S1x256x1x256x1x256_S1x1x1x256x256x256_0_2_4_1_3_5) : (⟨S1x256x1x256x1x256, .i32⟩ : BufTy).Contents (Elt F) → (⟨S1x1x1x256x256x256, .i32⟩ : BufTy).Contents (Elt F)),
    StableHlo.reshape main_v66 main_v67 rfl shapeCasts_S1x1x1x256x256x256_S1x16777216,
    StableHlo.nullary main_c_18 (constantI S_ 32 2147483647#32),
    StableHlo.binary main_v67 main_c_18 main_v68 ((fun x v => Host.reduce IntOp.minsi x v reducesTo_S1x16777216_S1_d1 h_S_) : (⟨S1x16777216, .i32⟩ : BufTy).Contents (Elt F) → (⟨S_, .i32⟩ : BufTy).Contents (Elt F) → (⟨S1, .i32⟩ : BufTy).Contents (Elt F)),
    StableHlo.nullary main_c_19 (constantI S_ 32 2147483648#32),
    StableHlo.binary main_v67 main_c_19 main_v69 ((fun x v => Host.reduce IntOp.maxsi x v reducesTo_S1x16777216_S1_d1 h_S_) : (⟨S1x16777216, .i32⟩ : BufTy).Contents (Elt F) → (⟨S_, .i32⟩ : BufTy).Contents (Elt F) → (⟨S1, .i32⟩ : BufTy).Contents (Elt F)),
    StableHlo.binary main_v69 main_v68 main_v70 (cmpi .sgt : (⟨S1, .i32⟩ : BufTy).Contents (Elt F) → (⟨S1, .i32⟩ : BufTy).Contents (Elt F) → (⟨S1, .i1⟩ : BufTy).Contents (Elt F)),
    StableHlo.nullary main_c_20 (constantI S_ 32 2#32) ]

abbrev st23 : List (HloOp τ sig (Elt F)) :=
  [ StableHlo.TRef.unary (.of main_c_20 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S1, .i32⟩) (broadcastInDim S1 ![] bcast_S_S1),
    StableHlo.TRef.ternary (.of main_v70 : StableHlo.TRef sig ⟨S1, .i1⟩) (.of main_call12_v1 : StableHlo.TRef sig ⟨S1, .i32⟩) (.of main_v68 : StableHlo.TRef sig ⟨S1, .i32⟩) (.of main_v71 : StableHlo.TRef sig ⟨S1, .i32⟩) select ]

abbrev st24 : List (HloOp τ sig (Elt F)) :=
  [ StableHlo.TRef.nullary (.of main_call13_cst : StableHlo.TRef sig ⟨S_, .f32⟩) (constant S_ .f32 0xFF800000#32),
    StableHlo.TRef.binary (.of main_arg5 : StableHlo.TRef sig ⟨S1x3, .f32⟩) (.of main_call13_cst : StableHlo.TRef sig ⟨S_, .f32⟩) (.of main_call13_v0 : StableHlo.TRef sig ⟨S1, .f32⟩) (fun x v => Host.reduce FloatOps.maximumf x v reducesTo_S1x3_S1_d1 h_S_),
    StableHlo.TRef.nullary (.of main_call13_cst_0 : StableHlo.TRef sig ⟨S_, .f32⟩) (constant S_ .f32 0xFF800000#32),
    StableHlo.TRef.unary (.of main_call13_cst_0 : StableHlo.TRef sig ⟨S_, .f32⟩) (.of main_call13_v1 : StableHlo.TRef sig ⟨S1, .f32⟩) (broadcastInDim S1 ![] bcast_S_S1),
    StableHlo.TRef.binary (.of main_call13_v1 : StableHlo.TRef sig ⟨S1, .f32⟩) (.of main_call13_v0 : StableHlo.TRef sig ⟨S1, .f32⟩) (.of main_call13_v2 : StableHlo.TRef sig ⟨S1, .f32⟩) maximumf,
    StableHlo.TRef.unary (.of main_call13_v2 : StableHlo.TRef sig ⟨S1, .f32⟩) (.of main_call13_v3 : StableHlo.TRef sig ⟨S1x1, .f32⟩) (broadcastInDim S1x1 ![0] bcast_S1_S1x1_0),
    StableHlo.TRef.unary (.of main_call13_v3 : StableHlo.TRef sig ⟨S1x1, .f32⟩) (.of main_call13_v4 : StableHlo.TRef sig ⟨S1x3, .f32⟩) (broadcastInDim S1x3 ![0, 1] bcast_S1x1_S1x3_0_1),
    StableHlo.TRef.binary (.of main_arg5 : StableHlo.TRef sig ⟨S1x3, .f32⟩) (.of main_call13_v4 : StableHlo.TRef sig ⟨S1x3, .f32⟩) (.of main_call13_v5 : StableHlo.TRef sig ⟨S1x3, .f32⟩) subf,
    StableHlo.TRef.unary (.of main_call13_v5 : StableHlo.TRef sig ⟨S1x3, .f32⟩) (.of main_call13_v6 : StableHlo.TRef sig ⟨S1x3, .f32⟩) Host.exp,
    StableHlo.TRef.nullary (.of main_call13_cst_1 : StableHlo.TRef sig ⟨S_, .f32⟩) (constant S_ .f32 0x00000000#32),
    StableHlo.TRef.binary (.of main_call13_v6 : StableHlo.TRef sig ⟨S1x3, .f32⟩) (.of main_call13_cst_1 : StableHlo.TRef sig ⟨S_, .f32⟩) (.of main_call13_v7 : StableHlo.TRef sig ⟨S1, .f32⟩) (fun x v => Host.reduceAdd x v reducesTo_S1x3_S1_d1 h_S_),
    StableHlo.TRef.unary (.of main_call13_v7 : StableHlo.TRef sig ⟨S1, .f32⟩) (.of main_call13_v8 : StableHlo.TRef sig ⟨S1x1, .f32⟩) (broadcastInDim S1x1 ![0] bcast_S1_S1x1_0),
    StableHlo.TRef.unary (.of main_call13_v8 : StableHlo.TRef sig ⟨S1x1, .f32⟩) (.of main_call13_v9 : StableHlo.TRef sig ⟨S1x1, .f32⟩) Host.log,
    StableHlo.TRef.unary (.of main_call13_v9 : StableHlo.TRef sig ⟨S1x1, .f32⟩) (.of main_call13_v10 : StableHlo.TRef sig ⟨S1x3, .f32⟩) (broadcastInDim S1x3 ![0, 1] bcast_S1x1_S1x3_0_1),
    StableHlo.TRef.binary (.of main_call13_v5 : StableHlo.TRef sig ⟨S1x3, .f32⟩) (.of main_call13_v10 : StableHlo.TRef sig ⟨S1x3, .f32⟩) (.of main_v72 : StableHlo.TRef sig ⟨S1x3, .f32⟩) subf ]

abbrev st25 : List (HloOp τ sig (Elt F)) :=
  [ StableHlo.unary main_v71 main_v73 (broadcastInDim S1x1 ![0] bcast_S1_S1x1_0 : (⟨S1, .i32⟩ : BufTy).Contents (Elt F) → (⟨S1x1, .i32⟩ : BufTy).Contents (Elt F)) ]

abbrev st26 : List (HloOp τ sig (Elt F)) :=
  [ StableHlo.TRef.nullary (.of main_call14_c : StableHlo.TRef sig ⟨S_, .i32⟩) (constantI S_ 32 0#32),
    StableHlo.TRef.unary (.of main_call14_c : StableHlo.TRef sig ⟨S_, .i32⟩) (.of main_call14_v0 : StableHlo.TRef sig ⟨S1x1, .i32⟩) (broadcastInDim S1x1 ![] bcast_S_S1x1),
    StableHlo.TRef.binary (.of main_v73 : StableHlo.TRef sig ⟨S1x1, .i32⟩) (.of main_call14_v0 : StableHlo.TRef sig ⟨S1x1, .i32⟩) (.of main_call14_v1 : StableHlo.TRef sig ⟨S1x1, .i1⟩) (cmpi .slt),
    StableHlo.TRef.nullary (.of main_call14_c_0 : StableHlo.TRef sig ⟨S_, .i32⟩) (constantI S_ 32 3#32),
    StableHlo.TRef.unary (.of main_call14_c_0 : StableHlo.TRef sig ⟨S_, .i32⟩) (.of main_call14_v2 : StableHlo.TRef sig ⟨S1x1, .i32⟩) (broadcastInDim S1x1 ![] bcast_S_S1x1),
    StableHlo.TRef.binary (.of main_v73 : StableHlo.TRef sig ⟨S1x1, .i32⟩) (.of main_call14_v2 : StableHlo.TRef sig ⟨S1x1, .i32⟩) (.of main_call14_v3 : StableHlo.TRef sig ⟨S1x1, .i32⟩) addi,
    StableHlo.TRef.ternary (.of main_call14_v1 : StableHlo.TRef sig ⟨S1x1, .i1⟩) (.of main_call14_v3 : StableHlo.TRef sig ⟨S1x1, .i32⟩) (.of main_v73 : StableHlo.TRef sig ⟨S1x1, .i32⟩) (.of main_call14_v4 : StableHlo.TRef sig ⟨S1x1, .i32⟩) select,
    StableHlo.TRef.nullary (.of main_call14_c_1 : StableHlo.TRef sig ⟨S1, .i32⟩) (constantI S1 32 2#32),
    StableHlo.TRef.nullary (.of main_call14_c_2 : StableHlo.TRef sig ⟨S_, .i32⟩) (constantI S_ 32 0#32),
    StableHlo.TRef.unary (.of main_call14_c_2 : StableHlo.TRef sig ⟨S_, .i32⟩) (.of main_call14_v5 : StableHlo.TRef sig ⟨S1x1, .i32⟩) (broadcastInDim S1x1 ![] bcast_S_S1x1),
    StableHlo.TRef.binary (.of main_call14_v4 : StableHlo.TRef sig ⟨S1x1, .i32⟩) (.of main_call14_v5 : StableHlo.TRef sig ⟨S1x1, .i32⟩) (.of main_call14_v6 : StableHlo.TRef sig ⟨S1x1, .i1⟩) (cmpi .sge),
    StableHlo.TRef.unary (.of main_call14_c_1 : StableHlo.TRef sig ⟨S1, .i32⟩) (.of main_call14_v7 : StableHlo.TRef sig ⟨S1x1, .i32⟩) (broadcastInDim S1x1 ![1] bcast_S1_S1x1_1),
    StableHlo.TRef.binary (.of main_call14_v4 : StableHlo.TRef sig ⟨S1x1, .i32⟩) (.of main_call14_v7 : StableHlo.TRef sig ⟨S1x1, .i32⟩) (.of main_call14_v8 : StableHlo.TRef sig ⟨S1x1, .i1⟩) (cmpi .sle),
    StableHlo.TRef.binary (.of main_call14_v6 : StableHlo.TRef sig ⟨S1x1, .i1⟩) (.of main_call14_v8 : StableHlo.TRef sig ⟨S1x1, .i1⟩) (.of main_call14_v9 : StableHlo.TRef sig ⟨S1x1, .i1⟩) andi,
    StableHlo.TRef.nullary (.of main_call14_c_3 : StableHlo.TRef sig ⟨S_, .i1⟩) (constantI S_ 1 1#1),
    StableHlo.TRef.binary (.of main_call14_v9 : StableHlo.TRef sig ⟨S1x1, .i1⟩) (.of main_call14_c_3 : StableHlo.TRef sig ⟨S_, .i1⟩) (.of main_call14_v10 : StableHlo.TRef sig ⟨S1, .i1⟩) (fun x v => Host.reduce IntOp.andi x v reducesTo_S1x1_S1_d1 h_S_),
    StableHlo.TRef.binary (.of main_v72 : StableHlo.TRef sig ⟨S1x3, .f32⟩) (.of main_call14_v4 : StableHlo.TRef sig ⟨S1x1, .i32⟩) (.of main_call14_v11 : StableHlo.TRef sig ⟨S1x1, .f32⟩) (fun x i => Host.gather gather_S1x3_S1x1_S1x1_0_1_n_n_1_1_11 x i),
    StableHlo.TRef.unary (.of main_call14_v10 : StableHlo.TRef sig ⟨S1, .i1⟩) (.of main_call14_v12 : StableHlo.TRef sig ⟨S1x1, .i1⟩) (broadcastInDim S1x1 ![1] bcast_S1_S1x1_1),
    StableHlo.TRef.nullary (.of main_call14_cst : StableHlo.TRef sig ⟨S_, .f32⟩) (constant S_ .f32 0x7FC00000#32),
    StableHlo.TRef.unary (.of main_call14_cst : StableHlo.TRef sig ⟨S_, .f32⟩) (.of main_call14_v13 : StableHlo.TRef sig ⟨S1x1, .f32⟩) (broadcastInDim S1x1 ![] bcast_S_S1x1),
    StableHlo.TRef.ternary (.of main_call14_v12 : StableHlo.TRef sig ⟨S1x1, .i1⟩) (.of main_call14_v11 : StableHlo.TRef sig ⟨S1x1, .f32⟩) (.of main_call14_v13 : StableHlo.TRef sig ⟨S1x1, .f32⟩) (.of main_v74 : StableHlo.TRef sig ⟨S1x1, .f32⟩) select ]

abbrev st27 : List (HloOp τ sig (Elt F)) :=
  [ StableHlo.reshape main_v74 main_v75 rfl shapeCasts_S1x1_S1,
    StableHlo.unary main_v75 main_v76 (Host.negf : (⟨S1, .f32⟩ : BufTy).Contents (Elt F) → (⟨S1, .f32⟩ : BufTy).Contents (Elt F)),
    StableHlo.nullary main_cst_21 (constant S_ .f32 0x4B800000#32),
    StableHlo.unary main_cst_21 main_v77 (broadcastInDim S1 ![] bcast_S_S1 : (⟨S_, .f32⟩ : BufTy).Contents (Elt F) → (⟨S1, .f32⟩ : BufTy).Contents (Elt F)),
    StableHlo.binary main_v76 main_v77 main_v78 (mulf : (⟨S1, .f32⟩ : BufTy).Contents (Elt F) → (⟨S1, .f32⟩ : BufTy).Contents (Elt F) → (⟨S1, .f32⟩ : BufTy).Contents (Elt F)),
    StableHlo.nullary main_cst_22 (constant S_ .f32 0x00000000#32),
    StableHlo.binary main_v78 main_cst_22 main_v79 ((fun x v => Host.reduceAdd x v reducesTo_S1_S_d0 h_S_) : (⟨S1, .f32⟩ : BufTy).Contents (Elt F) → (⟨S_, .f32⟩ : BufTy).Contents (Elt F) → (⟨S_, .f32⟩ : BufTy).Contents (Elt F)),
    StableHlo.binary main_v64 main_v79 main_v80 (addf : (⟨S_, .f32⟩ : BufTy).Contents (Elt F) → (⟨S_, .f32⟩ : BufTy).Contents (Elt F) → (⟨S_, .f32⟩ : BufTy).Contents (Elt F)) ]

abbrev opsA : List (HloOp τ sig (Elt F)) := st0 ++ st1 ++ st2 ++ st3
abbrev opsB : List (HloOp τ sig (Elt F)) := st4 ++ st5 ++ st6
abbrev opsC : List (HloOp τ sig (Elt F)) := st7 ++ st8 ++ st9 ++ st10
abbrev opsD : List (HloOp τ sig (Elt F)) := st11 ++ st12 ++ st13 ++ st14
abbrev opsE : List (HloOp τ sig (Elt F)) := st15 ++ st16
abbrev opsF : List (HloOp τ sig (Elt F)) := st17 ++ st18 ++ st19 ++ st20
abbrev opsG : List (HloOp τ sig (Elt F)) := st21 ++ st22
abbrev opsH : List (HloOp τ sig (Elt F)) := st23 ++ st24 ++ st25 ++ st26 ++ st27

abbrev allOps : List (HloOp τ sig (Elt F)) := opsA ++ opsB ++ opsC ++ opsD ++ opsE ++ opsF ++ opsG ++ opsH

end Cert.ReferenceIdeal.HR

end
-- ==== Proof.RRun.lean ====
import proofs.«405900_j55972013802040_1_alg».proof.Proof.ROps
import Idealize.ShloMosaic.Lib.StableHlo.Run
import Idealize.ShloMosaic.Lib.Pipeline.Regions
import Idealize.ShloMosaic.Lib.Pipeline.Frame

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

-- Lines run one after the other are their concatenation run as one line.
theorem chain_map_seq {nD : Nat} {τ : Topo} {sig : RefSig} {Val : EltTy → Type} {Λ : Labels} :
    ∀ Ls : List (List (HloOp τ sig Val)),
      Pipeline.chain (Ls.map fun l => (seq l : Prog (TpuEff nD τ sig Val Λ .tc) PUnit)) = seq Ls.flatten
  | [] => rfl
  | l :: Ls => by
    rw [List.map_cons, Pipeline.chain_cons, List.flatten_cons, seq_append, chain_map_seq Ls]

abbrev PT (F : FTy → Type) [FloatOps F] := Prog (TpuEff nD τ sig (Elt F) (Pipeline.Sig Λ₀ (Fin 0) fun p => (pcfgs (F := F) p).Adm) .tc) PUnit

theorem main_part0_chain (c : Dev nD) : main_part0 (F := F) c = (Pipeline.chainK
  [seq st0, seq st1, seq st2, seq st3, seq st4, seq st5, seq st6, seq st7, seq st8, seq st9, seq st10, seq st11, seq st12,
    seq st13, seq st14, seq st15] (seq st16) : PT F) := by
  chain_rfl

theorem main_part1_chain (c : Dev nD) : main_part1 (F := F) c = (Pipeline.chain
  [seq st17, seq st18, seq st19, seq st20, seq st21, seq st22, seq st23, seq st24, seq st25, seq st26, seq st27] : PT F) := by
  chain_rfl

-- Each call unfolds to its callee's lines over the call's buffers, so @main is the straight line of its operations.
theorem main_eq (c : Dev nD) : main (F := F) c = seq allOps := by
  have h : main (F := F) c = (Pipeline.chain ([st0, st1, st2, st3, st4, st5, st6, st7, st8, st9, st10, st11, st12, st13, st14, st15, st16, st17, st18, st19, st20, st21, st22, st23, st24, st25, st26, st27].map fun l => (seq l : PT F))) := by
    show (main_part0 (F := F) c >>= fun _ => main_part1 (F := F) c) = _
    rewrite [main_part1_chain, main_part0_chain, Pipeline.chainK_bind_chain]
    chain_rfl
  refine h.trans ((chain_map_seq _).trans (congrArg seq ?_))
  simp only [List.flatten_cons, List.flatten_nil, List.append_nil, List.append_assoc]

theorem scopedRefs_eq : (Finset.univ.filter fun b : Ref sig .tc => b.isScoped) = ∅ := by decide
theorem scopedSems_eq : (Finset.univ.filter fun sm : SemLoc sig => sm.isScoped .tc) = ∅ := by decide

theorem allOps_sub : (allOps : List (HloOp τ sig (Elt F))).Forall fun op => op.bufs ⊆ tcRefs τ sig := by
  simp only [List.forall_append, List.forall_cons, List.Forall, reshape_bufs_sub, nullary_bufs_sub, unary_bufs_sub,
    binary_bufs_sub, ternary_bufs_sub, and_self]

theorem allOps_fresh : ∀ op ∈ (allOps : List (HloOp τ sig (Elt F))), op.fresh = ∅ := by
  refine List.forall_iff_forall_mem.mp ?_
  simp only [List.forall_append, List.forall_cons, List.Forall]
  repeat' constructor

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after allOps (launchContents m c) (b : DevRef τ sig) :=
  run_seq scopedRefs_eq scopedSems_eq defs main (fun _ => allOps) main_eq (fun _ => allOps_sub) m ρ (fun _ => allOps_fresh)

-- No operation writes an argument.
theorem allOps_kept (V : Valuation τ sig (Elt F)) :
    after allOps V (main_arg0 : DevRef τ sig) = V (main_arg0 : DevRef τ sig)
    ∧ after allOps V (main_arg1 : DevRef τ sig) = V (main_arg1 : DevRef τ sig)
    ∧ after allOps V (main_arg2 : DevRef τ sig) = V (main_arg2 : DevRef τ sig)
    ∧ after allOps V (main_arg3 : DevRef τ sig) = V (main_arg3 : DevRef τ sig)
    ∧ after allOps V (main_arg4 : DevRef τ sig) = V (main_arg4 : DevRef τ sig)
    ∧ after allOps V (main_arg5 : DevRef τ sig) = V (main_arg5 : DevRef τ sig) := by
  refine ⟨?_, ?_, ?_, ?_, ?_, ?_⟩ <;> (simp only [after_append, after_cons, after_nil]; rfl)

theorem frame_ref (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
      obtain ⟨h0, h1, h2, h3, h4, h5⟩ := allOps_kept (F := F) (launchContents m c)
      exact ⟨(h c main_arg0).trans h0, (h c main_arg1).trans h1, (h c main_arg2).trans h2,
        (h c main_arg3).trans h3, (h c main_arg4).trans h4, (h c main_arg5).trans h5⟩)
    (run_main m ρ)

end Cert.ReferenceIdeal.HR

end
-- ==== Proof.RDefs.lean ====
import proofs.«405900_j55972013802040_1_alg».proof.ReferenceIdeal

noncomputable section

namespace Cert.ReferenceIdeal

open Idealize.ShloMosaic

namespace RD

variable {F : FTy → Type} [FloatOps F] [Facts]
open Facts₀ Facts

def floorDiv2 (v : IVec S256x256x256 32) : IVec S256x256x256 32 :=
  let d : IVec S_ 32 := id (constantI S_ 32 2#32)
  let q : IVec S256x256x256 32 := Host.divsi v (broadcastInDim S256x256x256 ![] bcast_S_S256x256x256 d)
  let sg : IVec S256x256x256 1 := cmpi .ne (signi v) (broadcastInDim S256x256x256 ![] bcast_S_S256x256x256 (signi d))
  let rm : IVec S256x256x256 32 := Host.remsi v (broadcastInDim S256x256x256 ![] bcast_S_S256x256x256 d)
  let nz : IVec S256x256x256 1 := cmpi .ne rm (broadcastInDim S256x256x256 ![] bcast_S_S256x256x256 (constantI S_ 32 0#32))
  select (andi sg nz) (subi q (broadcastInDim S256x256x256 ![] bcast_S_S256x256x256 (constantI S_ 32 1#32))) q

def gt01 (g : IVec S1x256x256x256 32) : IVec S256x256x256 32 :=
  floorDiv2 (addi (shapeCast S256x256x256 g shapeCasts_S1x256x256x256_S256x256x256)
    (broadcastInDim S256x256x256 ![] bcast_S_S256x256x256 (constantI S_ 32 1#32)))

def tgt0 (g01 : IVec S256x256x256 32) : IVec S4096x4096 32 :=
  shapeCast S4096x4096 (transpose S16x16x16x16x16x16 [0, 2, 4, 1, 3, 5]
    (shapeCast S16x16x16x16x16x16 g01 shapeCasts_S256x256x256_S16x16x16x16x16x16)
    transposes_S16x16x16x16x16x16_S16x16x16x16x16x16_0_2_4_1_3_5) shapeCasts_S16x16x16x16x16x16_S4096x4096

def logSoftmax0 (x : FVec F S4096x2x16x16x16 .f32) : FVec F S4096x2x16x16x16 .f32 :=
  let mx : FVec F S4096x16x16x16 .f32 :=
    maximumf (broadcastInDim S4096x16x16x16 ![] bcast_S_S4096x16x16x16 (constant S_ .f32 0xFF800000#32))
      (Host.reduce FloatOps.maximumf x (constant S_ .f32 0xFF800000#32) reducesTo_S4096x2x16x16x16_S4096x16x16x16_d1 h_S_)
  let sh : FVec F S4096x2x16x16x16 .f32 :=
    subf x (broadcastInDim S4096x2x16x16x16 ![0, 1, 2, 3, 4] bcast_S4096x1x16x16x16_S4096x2x16x16x16_0_1_2_3_4
      (broadcastInDim S4096x1x16x16x16 ![0, 2, 3, 4] bcast_S4096x16x16x16_S4096x1x16x16x16_0_2_3_4 mx))
  let se : FVec F S4096x16x16x16 .f32 :=
    Host.reduceAdd (Host.exp sh) (constant S_ .f32 0x00000000#32) reducesTo_S4096x2x16x16x16_S4096x16x16x16_d1 h_S_
  subf sh (broadcastInDim S4096x2x16x16x16 ![0, 1, 2, 3, 4] bcast_S4096x1x16x16x16_S4096x2x16x16x16_0_1_2_3_4
    (Host.log (broadcastInDim S4096x1x16x16x16 ![0, 2, 3, 4] bcast_S4096x16x16x16_S4096x1x16x16x16_0_2_3_4 se)))

def takeAlong0 (lp : FVec F S4096x2x4096 .f32) (ix : IVec S4096x1x4096 32) : FVec F S4096x1x4096 .f32 :=
  let wrapped : IVec S4096x1x4096 32 :=
    select (cmpi .slt ix (broadcastInDim S4096x1x4096 ![] bcast_S_S4096x1x4096 (constantI S_ 32 0#32)))
      (addi ix (broadcastInDim S4096x1x4096 ![] bcast_S_S4096x1x4096 (constantI S_ 32 2#32))) ix
  let i4 : IVec S4096x1x4096x1 32 := shapeCast S4096x1x4096x1 wrapped shapeCasts_S4096x1x4096_S4096x1x4096x1
  let ge : IVec S4096x1x4096x1 1 := cmpi .sge i4 (broadcastInDim S4096x1x4096x1 ![] bcast_S_S4096x1x4096x1 (constantI S_ 32 0#32))
  let le : IVec S4096x1x4096x1 1 := cmpi .sle i4 (broadcastInDim S4096x1x4096x1 ![0, 1, 2, 3] bcast_S1x1x1x1_S4096x1x4096x1_0_1_2_3
    (broadcastInDim S1x1x1x1 ![3] bcast_S1_S1x1x1x1_3 (constantI S1 32 1#32)))
  let ok : IVec S4096x1x4096 1 := Host.reduce IntOp.andi (andi ge le) (constantI S_ 1 1#1) reducesTo_S4096x1x4096x1_S4096x1x4096_d3 h_S_
  select ok (Host.gather gather_S4096x2x4096_S4096x1x4096x1_S4096x1x4096_n_1_02_02_1_3_111 lp i4)
    (broadcastInDim S4096x1x4096 ![] bcast_S_S4096x1x4096 (constant S_ .f32 0x7FC00000#32))

def loss0 (x : FVec F S4096x2x16x16x16 .f32) (t : IVec S4096x4096 32) : FVec F S_ .f32 :=
  let lp : FVec F S4096x2x4096 .f32 := shapeCast S4096x2x4096 (logSoftmax0 x) shapeCasts_S4096x2x16x16x16_S4096x2x4096
  let tk : FVec F S4096x1x4096 .f32 := takeAlong0 lp (broadcastInDim S4096x1x4096 ![0, 2] bcast_S4096x4096_S4096x1x4096_0_2 t)
  let ng : FVec F S4096x4096 .f32 := Host.negf (shapeCast S4096x4096 tk shapeCasts_S4096x1x4096_S4096x4096)
  let s1 : FVec F S4096 .f32 := Host.reduceAdd ng (constant S_ .f32 0x00000000#32) reducesTo_S4096x4096_S4096_d1 h_S_
  Host.reduceAdd (Host.divf s1 (broadcastInDim S4096 ![] bcast_S_S4096 (constant S_ .f32 0x45800000#32)))
    (constant S_ .f32 0x00000000#32) reducesTo_S4096_S_d0 h_S_

def blocks1 (g01 : IVec S256x256x256 32) : IVec S512x32768 32 :=
  shapeCast S512x32768 (transpose S8x8x8x32x32x32 [0, 2, 4, 1, 3, 5]
    (shapeCast S8x32x8x32x8x32 g01 shapeCasts_S256x256x256_S8x32x8x32x8x32)
    transposes_S8x32x8x32x8x32_S8x8x8x32x32x32_0_2_4_1_3_5) shapeCasts_S8x8x8x32x32x32_S512x32768

def blocks2 (g01 : IVec S256x256x256 32) : IVec S64x262144 32 :=
  shapeCast S64x262144 (transpose S4x4x4x64x64x64 [0, 2, 4, 1, 3, 5]
    (shapeCast S4x64x4x64x4x64 g01 shapeCasts_S256x256x256_S4x64x4x64x4x64)
    transposes_S4x64x4x64x4x64_S4x4x4x64x64x64_0_2_4_1_3_5) shapeCasts_S4x4x4x64x64x64_S64x262144

def blocks3 (g01 : IVec S256x256x256 32) : IVec S8x2097152 32 :=
  shapeCast S8x2097152 (transpose S2x2x2x128x128x128 [0, 2, 4, 1, 3, 5]
    (shapeCast S2x128x2x128x2x128 g01 shapeCasts_S256x256x256_S2x128x2x128x2x128)
    transposes_S2x128x2x128x2x128_S2x2x2x128x128x128_0_2_4_1_3_5) shapeCasts_S2x2x2x128x128x128_S8x2097152

def blocks4 (g01 : IVec S256x256x256 32) : IVec S1x16777216 32 :=
  shapeCast S1x16777216 (transpose S1x1x1x256x256x256 [0, 2, 4, 1, 3, 5]
    (shapeCast S1x256x1x256x1x256 g01 shapeCasts_S256x256x256_S1x256x1x256x1x256)
    transposes_S1x256x1x256x1x256_S1x1x1x256x256x256_0_2_4_1_3_5) shapeCasts_S1x1x1x256x256x256_S1x16777216

def bmin1 (g01 : IVec S256x256x256 32) : IVec S512 32 :=
  Host.reduce IntOp.minsi (blocks1 g01) (constantI S_ 32 2147483647#32) reducesTo_S512x32768_S512_d1 h_S_
def bmax1 (g01 : IVec S256x256x256 32) : IVec S512 32 :=
  Host.reduce IntOp.maxsi (blocks1 g01) (constantI S_ 32 2147483648#32) reducesTo_S512x32768_S512_d1 h_S_
def bmin2 (g01 : IVec S256x256x256 32) : IVec S64 32 :=
  Host.reduce IntOp.minsi (blocks2 g01) (constantI S_ 32 2147483647#32) reducesTo_S64x262144_S64_d1 h_S_
def bmax2 (g01 : IVec S256x256x256 32) : IVec S64 32 :=
  Host.reduce IntOp.maxsi (blocks2 g01) (constantI S_ 32 2147483648#32) reducesTo_S64x262144_S64_d1 h_S_
def bmin3 (g01 : IVec S256x256x256 32) : IVec S8 32 :=
  Host.reduce IntOp.minsi (blocks3 g01) (constantI S_ 32 2147483647#32) reducesTo_S8x2097152_S8_d1 h_S_
def bmax3 (g01 : IVec S256x256x256 32) : IVec S8 32 :=
  Host.reduce IntOp.maxsi (blocks3 g01) (constantI S_ 32 2147483648#32) reducesTo_S8x2097152_S8_d1 h_S_
def bmin4 (g01 : IVec S256x256x256 32) : IVec S1 32 :=
  Host.reduce IntOp.minsi (blocks4 g01) (constantI S_ 32 2147483647#32) reducesTo_S1x16777216_S1_d1 h_S_
def bmax4 (g01 : IVec S256x256x256 32) : IVec S1 32 :=
  Host.reduce IntOp.maxsi (blocks4 g01) (constantI S_ 32 2147483648#32) reducesTo_S1x16777216_S1_d1 h_S_

end RD

end Cert.ReferenceIdeal

end
-- ==== Proof.RVDefs.lean ====
import proofs.«405900_j55972013802040_1_alg».proof.Proof.ROps
import proofs.«405900_j55972013802040_1_alg».proof.Proof.RDefs
import proofs.«405900_j55972013802040_1_alg».proof.Proof.KTDefs

noncomputable section

namespace Cert.ReferenceIdeal

open Cert.ReferenceIdeal.Gen
open Idealize.ShloMosaic
open Cert.KernelIdeal.KT (T1 T2 T3 T4)

namespace RV

variable {F : FTy → Type} [FloatOps F]

-- The coarser levels' terms are the kernel program's own level functions: the two programs spell them alike.
def res (g : IVec S1x256x256x256 32) (x : FVec F S4096x2x16x16x16 .f32) (l1 : FVec F S512x3 .f32) (l2 : FVec F S64x3 .f32)
    (l3 : FVec F S8x3 .f32) (l4 : FVec F S1x3 .f32) : FVec F S_ .f32 :=
  let g01 := RD.gt01 g
  addf (addf (addf (addf (RD.loss0 x (RD.tgt0 g01)) (T1 l1 (RD.bmin1 g01) (RD.bmax1 g01))) (T2 l2 (RD.bmin2 g01) (RD.bmax2 g01)))
    (T3 l3 (RD.bmin3 g01) (RD.bmax3 g01))) (T4 l4 (RD.bmin4 g01) (RD.bmax4 g01))

end RV

end Cert.ReferenceIdeal

end
-- ==== Proof.RVal.lean ====
import proofs.«405900_j55972013802040_1_alg».proof.Proof.RVDefs
import Idealize.ShloMosaic.Lib.Pipeline.Frame

noncomputable section

namespace Cert.ReferenceIdeal

open Cert.ReferenceIdeal.Gen
open Idealize.ShloMosaic Idealize.ShloMosaic.TcCoe
open Cert.KernelIdeal.KT (wsum1 take3 wsum3 T2 T3 T4)

namespace RV

variable {F : FTy → Type} [FloatOps F]

theorem cast_eq' {α : Sort _} (h : α = α) (a : α) : cast h a = a := eq_of_heq (cast_heq h a)

-- From any contents the last two lists add level 3's sum of the picks found and level 4's term to the loss found.
theorem evalGH (V : Valuation τ sig (Elt F)) :
    StableHlo.after HR.opsH (StableHlo.after HR.opsG V) (Proc.devRef .tc main_v80)
      = addf (addf (V (Proc.devRef .tc main_v48)) (wsum3 (take3 (V (Proc.devRef .tc main_v56)) (V (Proc.devRef .tc main_v57))))) (T4 (V (Proc.devRef .tc main_arg5)) (RD.bmin4 (V (Proc.devRef .tc main_v3))) (RD.bmax4 (V (Proc.devRef .tc main_v3)))) := by
  simp only [StableHlo.after_append]
  after_results_simp
  simp only [StableHlo.TRef.ofBuf, StableHlo.TRef.toBuf, cast_eq']
  rfl

-- From any contents the last five lists add level 1's sum of the picks found and the terms of levels 2, 3 and 4.
theorem evalDH (V : Valuation τ sig (Elt F)) :
    StableHlo.after HR.opsH (StableHlo.after HR.opsG (StableHlo.after HR.opsF (StableHlo.after HR.opsE (StableHlo.after HR.opsD V)))) (Proc.devRef .tc main_v80)
      = addf (addf (addf (addf (V (Proc.devRef .tc main_v16)) (wsum1 (V (Proc.devRef .tc main_v26)))) (T2 (V (Proc.devRef .tc main_arg3)) (RD.bmin2 (V (Proc.devRef .tc main_v3))) (RD.bmax2 (V (Proc.devRef .tc main_v3))))) (T3 (V (Proc.devRef .tc main_arg4)) (RD.bmin3 (V (Proc.devRef .tc main_v3))) (RD.bmax3 (V (Proc.devRef .tc main_v3))))) (T4 (V (Proc.devRef .tc main_arg5)) (RD.bmin4 (V (Proc.devRef .tc main_v3))) (RD.bmax4 (V (Proc.devRef .tc main_v3)))) := by
  rw [evalGH]
  simp only [StableHlo.after_append]
  after_results_simp
  simp only [StableHlo.TRef.ofBuf, StableHlo.TRef.toBuf, cast_eq']
  rfl

-- The first three lists compute the class volume, the level-0 loss and level 1's picks; the rest is `evalDH`.
theorem eval (W : Valuation τ sig (Elt F)) :
    StableHlo.after HR.allOps W (Proc.devRef .tc main_v80)
      = res (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [HR.allOps, StableHlo.after_append _ HR.opsH, StableHlo.after_append _ HR.opsG, StableHlo.after_append _ HR.opsF,
    StableHlo.after_append _ HR.opsE, StableHlo.after_append _ HR.opsD, evalDH]
  simp only [StableHlo.after_append]
  after_results_simp
  simp only [StableHlo.TRef.ofBuf, StableHlo.TRef.toBuf, cast_eq']
  rfl

end RV

end Cert.ReferenceIdeal

end
-- ==== Proof.Pool.lean ====
import proofs.«405900_j55972013802040_1_alg».proof.Proof.KDefs
import proofs.«405900_j55972013802040_1_alg».proof.Proof.RDefs
import Idealize.ShloMosaic.PureOps.Reduce
import Idealize.ShloMosaic.Lib.Pipeline.Value
import Idealize.ShloMosaic.Lib.ValueIdxRank6
import Mathlib.Data.Finset.Fold

noncomputable section

namespace Cert.Pool

open Idealize.ShloMosaic Idealize.ShloMosaic.ValueIdx

structure MinLike (op : BitVec 32 → BitVec 32 → BitVec 32) (init : BitVec 32) (κ : BitVec 32 → Int) : Prop where
  inj : Function.Injective κ
  key_op : ∀ x y, κ (op x y) = min (κ x) (κ y)
  le_init : ∀ x, κ x ≤ κ init

variable {op : BitVec 32 → BitVec 32 → BitVec 32} {init : BitVec 32} {κ : BitVec 32 → Int}

theorem toInt_minsi (x y : BitVec 32) : (IntOp.minsi x y).toInt = min x.toInt y.toInt := by
  unfold IntOp.minsi; simp only [BitVec.slt, decide_eq_true_eq]; split <;> omega

theorem toInt_maxsi (x y : BitVec 32) : (IntOp.maxsi x y).toInt = max x.toInt y.toInt := by
  unfold IntOp.maxsi; simp only [BitVec.slt, decide_eq_true_eq]; split <;> omega

theorem minLike_minsi : MinLike IntOp.minsi 2147483647#32 BitVec.toInt where
  inj := fun _ _ h => BitVec.eq_of_toInt_eq h
  key_op := toInt_minsi
  le_init := fun x => by
    have := @BitVec.toInt_lt 32 x
    have e : (2147483647#32 : BitVec 32).toInt = 2147483647 := by decide
    omega

theorem minLike_maxsi : MinLike IntOp.maxsi 2147483648#32 (fun w => -w.toInt) where
  inj := fun _ _ h => BitVec.eq_of_toInt_eq (by simpa using h)
  key_op := fun x y => by show -(IntOp.maxsi x y).toInt = _; rw [toInt_maxsi]; omega
  le_init := fun x => by
    have := @BitVec.le_toInt 32 x
    have e : (2147483648#32 : BitVec 32).toInt = -2147483648 := by decide
    show -x.toInt ≤ -(2147483648#32 : BitVec 32).toInt
    omega

section Ext
variable {V : Type}

def Ext (κ : BitVec 32 → Int) (init : BitVec 32) (w : BitVec 32) (P : V → Prop) (G : V → BitVec 32) : Prop :=
  ∀ z : Int, z ≤ κ w ↔ z ≤ κ init ∧ ∀ v, P v → z ≤ κ (G v)

theorem Ext.unique (hm : MinLike op init κ) {w w' : BitVec 32} {P : V → Prop} {G : V → BitVec 32}
    (h : Ext κ init w P G) (h' : Ext κ init w' P G) : w = w' :=
  hm.inj (le_antisymm ((h' _).2 ((h _).1 le_rfl)) ((h _).2 ((h' _).1 le_rfl)))

theorem Ext.congr {w : BitVec 32} {P Q : V → Prop} {G : V → BitVec 32} (hPQ : ∀ v, Q v ↔ P v)
    (h : Ext κ init w P G) : Ext κ init w Q G :=
  fun z => (h z).trans (and_congr_right fun _ => forall_congr' fun v => imp_congr_left (hPQ v).symm)

theorem Ext.leaf (hm : MinLike op init κ) (G : V → BitVec 32) (v₀ : V) : Ext κ init (G v₀) (fun v => v = v₀) G :=
  fun z => ⟨fun h => ⟨h.trans (hm.le_init _), fun v hv => hv ▸ h⟩, fun h => h.2 v₀ rfl⟩

theorem Ext.fold [Std.Commutative op] [Std.Associative op] (hm : MinLike op init κ) {ι : Type} (S : Finset ι)
    (x : ι → BitVec 32) (P : ι → V → Prop) (G : V → BitVec 32) (h : ∀ i ∈ S, Ext κ init (x i) (P i) G) :
    Ext κ init (S.fold op init x) (fun v => ∃ i ∈ S, P i v) G := fun z =>
  (Finset.fold_op_rel_iff_and (r := fun _ w => z ≤ κ w) (c := init)
    (by intro _ y w; show z ≤ κ (op y w) ↔ _; rw [hm.key_op, le_min_iff])).trans
    ⟨fun ⟨h0, h1⟩ => ⟨h0, fun v ⟨i, hi, hp⟩ => ((h i hi z).1 (h1 i hi)).2 v hp⟩,
      fun ⟨h0, h1⟩ => ⟨h0, fun i hi => (h i hi z).2 ⟨h0, fun v hp => h1 v ⟨i, hi, hp⟩⟩⟩⟩

end Ext

def Blk (s X Y Z : Nat) (v : (⟨3, ![256, 256, 256]⟩ : Shape).Idx) : Prop := (v 0).val / s = X ∧ (v 1).val / s = Y ∧ (v 2).val / s = Z

theorem blk_split (s X Y Z : Nat) (v : (⟨3, ![256, 256, 256]⟩ : Shape).Idx) :
    Blk (2 * s) X Y Z v ↔ ∃ e f g : Fin 2, Blk s (2 * X + e.val) (2 * Y + f.val) (2 * Z + g.val) v := by
  unfold Blk
  rw [Nat.mul_comm 2 s, ← Nat.div_div_eq_div_mul, ← Nat.div_div_eq_div_mul, ← Nat.div_div_eq_div_mul]
  constructor
  · rintro ⟨rfl, rfl, rfl⟩
    exact ⟨⟨_ % 2, Nat.mod_lt _ Nat.two_pos⟩, ⟨_ % 2, Nat.mod_lt _ Nat.two_pos⟩, ⟨_ % 2, Nat.mod_lt _ Nat.two_pos⟩,
      (Nat.div_add_mod _ 2).symm, (Nat.div_add_mod _ 2).symm, (Nat.div_add_mod _ 2).symm⟩
  · rintro ⟨e, f, g, h0, h1, h2⟩
    exact ⟨by omega, by omega, by omega⟩

/-- A two-digit number in base `s` with leading digit below `n` is below `n * s`. -/
theorem mad_lt {n s x y : Nat} (hx : x < n) (hy : y < s) : x * s + y < n * s :=
  Nat.lt_of_lt_of_le (Nat.add_lt_add_left hy _) ((Nat.succ_mul x s).symm.trans_le (Nat.mul_le_mul_right s hx))

theorem mad_div {s x y : Nat} (hy : y < s) : (x * s + y) / s = x := by
  rw [Nat.add_comm, Nat.add_mul_div_right _ _ (by omega), Nat.div_eq_of_lt hy, Nat.zero_add]

/-- A number below `n³` has three digits in base `n`. -/
theorem dig3 {n a : Nat} (h : a < n * n * n) :
    a / (n * n) < n ∧ a / n % n < n ∧ a % n < n ∧ (a / (n * n) * n + a / n % n) * n + a % n = a := by
  have hn : 0 < n := Nat.pos_of_ne_zero (by rintro rfl; simp at h)
  refine ⟨Nat.div_lt_of_lt_mul h, Nat.mod_lt _ hn, Nat.mod_lt _ hn, ?_⟩
  rw [← Nat.div_div_eq_div_mul, Nat.div_add_mod', Nat.div_add_mod']

/-- The digits of a three-digit number are the digits it was written with. -/
theorem dig3_of {n x y z : Nat} (hy : y < n) (hz : z < n) :
    ((x * n + y) * n + z) / (n * n) = x ∧ ((x * n + y) * n + z) / n % n = y ∧ ((x * n + y) * n + z) % n = z := by
  refine ⟨?_, ?_, Nat.mul_add_mod_of_lt hz⟩
  · rw [← Nat.div_div_eq_div_mul, mad_div hz, mad_div hy]
  · rw [mad_div hz, Nat.mul_add_mod_of_lt hy]

section Cut
variable {n s N M : Nat} (G : IVec (⟨3, ![256, 256, 256]⟩ : Shape) 32)
  (h1 : (⟨3, ![256, 256, 256]⟩ : Shape).ShapeCasts (⟨6, ![n, s, n, s, n, s]⟩ : Shape))
  (h2 : (⟨6, ![n, s, n, s, n, s]⟩ : Shape).Transposes [0, 2, 4, 1, 3, 5] (⟨6, ![n, n, n, s, s, s]⟩ : Shape))
  (h3 : (⟨6, ![n, n, n, s, s, s]⟩ : Shape).ShapeCasts (⟨2, ![N, M]⟩ : Shape))

/-- The volume cut into `n³` blocks of side `s`, one row per block. -/
def cut : IVec (⟨2, ![N, M]⟩ : Shape) 32 :=
  shapeCast (⟨2, ![N, M]⟩ : Shape) (transpose (⟨6, ![n, n, n, s, s, s]⟩ : Shape) [0, 2, 4, 1, 3, 5]
    (shapeCast (⟨6, ![n, s, n, s, n, s]⟩ : Shape) G h1) h2) h3

variable {h1 h2 h3} {hr : (⟨2, ![N, M]⟩ : Shape).ReducesTo [1] (⟨1, ![N]⟩ : Shape)} {hu : 0 < (⟨0, ![]⟩ : Shape).numel}
  [Std.Commutative op] [Std.Associative op]

/-- Row `(X, Y, Z)`, column `(p, q, r)` of the cut volume is voxel `(X s + p, Y s + q, Z s + r)`. -/
theorem blocks_read (hns : n * s = 256) (hM : M = s * s * s) (a : Fin N) (b : Fin M) (X Y Z : Fin n) (p q r : Fin s)
    (ha : a.val = (X.val * n + Y.val) * n + Z.val) (hb : b.val = (p.val * s + q.val) * s + r.val) :
    cut G h1 h2 h3 (ix2 a b) = G (ix3 ⟨X.val * s + p.val, (mad_lt X.isLt p.isLt).trans_eq hns⟩
      ⟨Y.val * s + q.val, (mad_lt Y.isLt q.isLt).trans_eq hns⟩ ⟨Z.val * s + r.val, (mad_lt Z.isLt r.isLt).trans_eq hns⟩) := by
  refine (shapeCast_apply _ h3 _ (ix6 X Y Z p q r) ?_).trans ((transpose_apply [0, 2, 4, 1, 3, 5] _ h2 _ (ix6 X p Y q Z r)
    (fun c => match c with | ⟨0, _⟩ => rfl | ⟨1, _⟩ => rfl | ⟨2, _⟩ => rfl | ⟨3, _⟩ => rfl | ⟨4, _⟩ => rfl | ⟨5, _⟩ => rfl)).trans
    (shapeCast_apply _ h1 _ _ ?_))
  · rw [Shape.rowMajor_val_six, Shape.rowMajor_val_two]
    show ((((X.val * n + Y.val) * n + Z.val) * s + p.val) * s + q.val) * s + r.val = a.val * M + b.val
    rw [ha, hb, hM]; ring
  · rw [Shape.rowMajor_val_three, Shape.rowMajor_val_six]
    show ((X.val * s + p.val) * 256 + (Y.val * s + q.val)) * 256 + (Z.val * s + r.val)
      = ((((X.val * s + p.val) * n + Y.val) * s + q.val) * n + Z.val) * s + r.val
    rw [← hns]; ring

/-- Row `(X, Y, Z)` of the cut volume holds exactly the voxels of block `(X, Y, Z)`, so its fold is the block's least word. -/
theorem rowExt (hm : MinLike op init κ) (hns : n * s = 256) (hM : M = s * s * s) (X Y Z : Fin n) (B : Fin N)
    (hB : B.val = (X.val * n + Y.val) * n + Z.val) :
    Ext κ init (Host.reduce op (cut G h1 h2 h3) (constantI (⟨0, ![]⟩ : Shape) 32 init) hr hu (ix1 B)) (Blk s X.val Y.val Z.val) G := by
  subst hM
  have hs : 0 < s := Nat.pos_of_ne_zero (by rintro rfl; simp at hns)
  rw [Host.reduce_eq_fold]
  refine Ext.congr (fun v => ?_) (Ext.fold hm _ _ (fun i v => v = ix3
    ⟨X.val * s + (i 1).val / (s * s), (mad_lt X.isLt (dig3 (idx2_lt1 i)).1).trans_eq hns⟩
    ⟨Y.val * s + (i 1).val / s % s, (mad_lt Y.isLt (dig3 (idx2_lt1 i)).2.1).trans_eq hns⟩
    ⟨Z.val * s + (i 1).val % s, (mad_lt Z.isLt (dig3 (idx2_lt1 i)).2.2.1).trans_eq hns⟩) G (fun i hi => ?_))
  · constructor
    · rintro ⟨e0, e1, e2⟩
      have b1 := Nat.mod_lt (v 1).val hs
      have b2 := Nat.mod_lt (v 2).val hs
      obtain ⟨d0, d1, d2⟩ := dig3_of (x := (v 0).val % s) b1 b2
      refine ⟨ix2 B ⟨((v 0).val % s * s + (v 1).val % s) * s + (v 2).val % s, mad_lt (mad_lt (Nat.mod_lt _ hs) b1) b2⟩,
        Finset.mem_filter.2 ⟨Finset.mem_univ _, ?_⟩, ?_⟩
      · funext c
        match c with | ⟨0, _⟩ => rfl
      · funext c
        match c with
        | ⟨0, _⟩ => exact Fin.ext ((Nat.div_add_mod' _ s).symm.trans (congrArg₂ (· * s + ·) e0 d0.symm))
        | ⟨1, _⟩ => exact Fin.ext ((Nat.div_add_mod' _ s).symm.trans (congrArg₂ (· * s + ·) e1 d1.symm))
        | ⟨2, _⟩ => exact Fin.ext ((Nat.div_add_mod' _ s).symm.trans (congrArg₂ (· * s + ·) e2 d2.symm))
    · rintro ⟨i, -, rfl⟩
      obtain ⟨l0, l1, l2, -⟩ := dig3 (idx2_lt1 i)
      exact ⟨mad_div l0, mad_div l1, mad_div l2⟩
  · have h0 : (i 0).val = B.val := congrArg Fin.val (congrFun (Finset.mem_filter.1 hi).2 0)
    obtain ⟨l0, l1, l2, l3⟩ := dig3 (idx2_lt1 i)
    rw [show cut G h1 h2 h3 i = _ from (congrArg _ (eq_ix2 i)).trans
      (blocks_read G hns rfl (i 0) (i 1) X Y Z ⟨_, l0⟩ ⟨_, l1⟩ ⟨_, l2⟩ (h0.trans hB) l3.symm)]
    exact Ext.leaf hm G _

/-- The flattened grid of block extrema is the row folds of the cut volume. -/
theorem level (hm : MinLike op init κ) (hns : n * s = 256) (hN : N = n * n * n) (hM : M = s * s * s)
    (a : IVec (⟨3, ![n, n, n]⟩ : Shape) 32) (hf : (⟨3, ![n, n, n]⟩ : Shape).ShapeCasts (⟨1, ![N]⟩ : Shape))
    (ha : ∀ X Y Z : Fin n, Ext κ init (a (ix3 X Y Z)) (Blk s X.val Y.val Z.val) G) :
    shapeCast (⟨1, ![N]⟩ : Shape) a hf = Host.reduce op (cut G h1 h2 h3) (constantI (⟨0, ![]⟩ : Shape) 32 init) hr hu := by
  funext j
  obtain ⟨B, rfl⟩ : ∃ B : Fin N, j = ix1 B := ⟨j 0, eq_ix1 j⟩
  obtain ⟨l0, l1, l2, l3⟩ := dig3 (B.isLt.trans_eq hN)
  rw [shapeCast_apply a hf (ix1 B) (ix3 ⟨_, l0⟩ ⟨_, l1⟩ ⟨_, l2⟩) (by rw [Shape.rowMajor_val_three, Shape.rowMajor_val_one]; exact l3)]
  exact Ext.unique hm (ha _ _ _) (rowExt G hm hns hM _ _ _ B l3.symm)

end Cut

section Pooling
variable [Std.Commutative op] [Std.Associative op] {n : Nat} (a : IVec (⟨3, ![2 * n, 2 * n, 2 * n]⟩ : Shape) 32)
  (hc : (⟨3, ![2 * n, 2 * n, 2 * n]⟩ : Shape).ShapeCasts (⟨6, ![n, 2, n, 2, n, 2]⟩ : Shape))

theorem pool_read (X : Fin n) (e : Fin 2) (Y : Fin n) (f : Fin 2) (Z : Fin n) (g : Fin 2) :
    shapeCast (⟨6, ![n, 2, n, 2, n, 2]⟩ : Shape) a hc (ix6 X e Y f Z g)
      = a (ix3 (⟨2 * X.val + e.val, by omega⟩ : Fin (2 * n)) (⟨2 * Y.val + f.val, by omega⟩ : Fin (2 * n))
          (⟨2 * Z.val + g.val, by omega⟩ : Fin (2 * n))) := by
  refine shapeCast_apply _ hc _ _ ?_
  rw [Shape.rowMajor_val_three, Shape.rowMajor_val_six]
  show ((2 * X.val + e.val) * (2 * n) + (2 * Y.val + f.val)) * (2 * n) + (2 * Z.val + g.val)
    = ((((X.val * 2 + e.val) * n + Y.val) * 2 + f.val) * n + Z.val) * 2 + g.val
  ring

/-- A block of side `2 s` is the union of its eight children, so folding their least words gives its least word. -/
theorem poolBlk (hm : MinLike op init κ) (G : IVec (⟨3, ![256, 256, 256]⟩ : Shape) 32) (s : Nat)
    (hr : (⟨6, ![n, 2, n, 2, n, 2]⟩ : Shape).ReducesTo [1, 3, 5] (⟨3, ![n, n, n]⟩ : Shape)) (hu : 0 < (⟨0, ![]⟩ : Shape).numel)
    (ha : ∀ X Y Z : Fin (2 * n), Ext κ init (a (ix3 X Y Z)) (Blk s X.val Y.val Z.val) G) (X Y Z : Fin n) :
    Ext κ init (Host.reduce op (shapeCast (⟨6, ![n, 2, n, 2, n, 2]⟩ : Shape) a hc) (constantI (⟨0, ![]⟩ : Shape) 32 init) hr hu
      (ix3 X Y Z)) (Blk (2 * s) X.val Y.val Z.val) G := by
  rw [Host.reduce_eq_fold]
  refine Ext.congr (fun v => ?_) (Ext.fold hm _ _
    (fun i v => Blk s (2 * (i 0).val + (i 1).val) (2 * (i 2).val + (i 3).val) (2 * (i 4).val + (i 5).val) v) G (fun i _ => ?_))
  · refine (blk_split s X.val Y.val Z.val v).trans ⟨?_, ?_⟩
    · rintro ⟨e, f, g, hp⟩
      refine ⟨ix6 X e Y f Z g, Finset.mem_filter.2 ⟨Finset.mem_univ _, ?_⟩, hp⟩
      funext c
      match c with | ⟨0, _⟩ => rfl | ⟨1, _⟩ => rfl | ⟨2, _⟩ => rfl
    · rintro ⟨i, hi, hp⟩
      have hd := (Finset.mem_filter.1 hi).2
      have hp' : Blk s (2 * (i 0).val + (i 1).val) (2 * (i 2).val + (i 3).val) (2 * (i 4).val + (i 5).val) v := hp
      rw [show (i 0).val = X.val from congrArg Fin.val (congrFun hd 0), show (i 2).val = Y.val from congrArg Fin.val (congrFun hd 1),
        show (i 4).val = Z.val from congrArg Fin.val (congrFun hd 2)] at hp'
      exact ⟨i 1, i 3, i 5, hp'⟩
  · rw [show shapeCast (⟨6, ![n, 2, n, 2, n, 2]⟩ : Shape) a hc i = _ from
      (congrArg _ (eq_ix6 i)).trans (pool_read a hc (i 0) (i 1) (i 2) (i 3) (i 4) (i 5))]
    exact ha _ _ _

end Pooling

section Kernel
open Cert.KernelIdeal Cert.KernelIdeal.Facts₀
variable [Cert.KernelIdeal.Facts] (g01 : IVec S256x256x256 32)

section
variable (op init)
def kp0 : IVec S16x16x16 32 :=
  shapeCast S16x16x16 (Host.reduce op (KD.tgt0 g01) (constantI S_ 32 init) reducesTo_S4096x4096_S4096_d1 h_S_) shapeCasts_S4096_S16x16x16
def kp1 : IVec S8x8x8 32 :=
  Host.reduce op (shapeCast S8x2x8x2x8x2 (kp0 op init g01) shapeCasts_S16x16x16_S8x2x8x2x8x2) (constantI S_ 32 init) reducesTo_S8x2x8x2x8x2_S8x8x8_d1_3_5 h_S_
def kp2 : IVec S4x4x4 32 :=
  Host.reduce op (shapeCast S4x2x4x2x4x2 (kp1 op init g01) shapeCasts_S8x8x8_S4x2x4x2x4x2) (constantI S_ 32 init) reducesTo_S4x2x4x2x4x2_S4x4x4_d1_3_5 h_S_
def kp3 : IVec S2x2x2 32 :=
  Host.reduce op (shapeCast S2x2x2x2x2x2 (kp2 op init g01) shapeCasts_S4x4x4_S2x2x2x2x2x2) (constantI S_ 32 init) reducesTo_S2x2x2x2x2x2_S2x2x2_d1_3_5 h_S_
def kp4 : IVec S1x1x1 32 :=
  Host.reduce op (shapeCast S1x2x1x2x1x2 (kp3 op init g01) shapeCasts_S2x2x2_S1x2x1x2x1x2) (constantI S_ 32 init) reducesTo_S1x2x1x2x1x2_S1x1x1_d1_3_5 h_S_
end

variable [Std.Commutative op] [Std.Associative op] (hm : MinLike op init κ)
include hm

theorem kp0_ext (X Y Z : Fin 16) : Ext κ init (kp0 op init g01 (ix3 X Y Z)) (Blk 16 X.val Y.val Z.val) g01 := by
  unfold kp0
  rw [shapeCast_apply _ shapeCasts_S4096_S16x16x16 (ix3 X Y Z)
    (ix1 (⟨(X.val * 16 + Y.val) * 16 + Z.val, mad_lt (mad_lt X.isLt Y.isLt) Z.isLt⟩ : Fin 4096))
    (by rw [Shape.rowMajor_val_one, Shape.rowMajor_val_three]; rfl)]
  exact rowExt (n := 16) (s := 16) g01 hm rfl rfl X Y Z _ rfl

theorem kp1_ext (X Y Z : Fin 8) : Ext κ init (kp1 op init g01 (ix3 X Y Z)) (Blk 32 X.val Y.val Z.val) g01 :=
  poolBlk (n := 8) _ _ hm g01 16 _ _ (kp0_ext g01 hm) X Y Z
theorem kp2_ext (X Y Z : Fin 4) : Ext κ init (kp2 op init g01 (ix3 X Y Z)) (Blk 64 X.val Y.val Z.val) g01 :=
  poolBlk (n := 4) _ _ hm g01 32 _ _ (kp1_ext g01 hm) X Y Z
theorem kp3_ext (X Y Z : Fin 2) : Ext κ init (kp3 op init g01 (ix3 X Y Z)) (Blk 128 X.val Y.val Z.val) g01 :=
  poolBlk (n := 2) _ _ hm g01 64 _ _ (kp2_ext g01 hm) X Y Z
theorem kp4_ext (X Y Z : Fin 1) : Ext κ init (kp4 op init g01 (ix3 X Y Z)) (Blk 256 X.val Y.val Z.val) g01 :=
  poolBlk (n := 1) _ _ hm g01 128 _ _ (kp3_ext g01 hm) X Y Z

end Kernel

section Final
variable [Cert.KernelIdeal.Facts] [Cert.ReferenceIdeal.Facts]

theorem bmin1_eq (g01 : IVec Cert.KernelIdeal.S256x256x256 32) :
    Cert.KernelIdeal.KD.bmin1 (Cert.KernelIdeal.KD.tgt0 g01) = Cert.ReferenceIdeal.RD.bmin1 g01 :=
  level (n := 8) (s := 32) g01 minLike_minsi rfl rfl rfl _ _ (kp1_ext g01 minLike_minsi)
theorem bmax1_eq (g01 : IVec Cert.KernelIdeal.S256x256x256 32) :
    Cert.KernelIdeal.KD.bmax1 (Cert.KernelIdeal.KD.tgt0 g01) = Cert.ReferenceIdeal.RD.bmax1 g01 :=
  level (n := 8) (s := 32) g01 minLike_maxsi rfl rfl rfl _ _ (kp1_ext g01 minLike_maxsi)
theorem bmin2_eq (g01 : IVec Cert.KernelIdeal.S256x256x256 32) :
    Cert.KernelIdeal.KD.bmin2 (Cert.KernelIdeal.KD.tgt0 g01) = Cert.ReferenceIdeal.RD.bmin2 g01 :=
  level (n := 4) (s := 64) g01 minLike_minsi rfl rfl rfl _ _ (kp2_ext g01 minLike_minsi)
theorem bmax2_eq (g01 : IVec Cert.KernelIdeal.S256x256x256 32) :
    Cert.KernelIdeal.KD.bmax2 (Cert.KernelIdeal.KD.tgt0 g01) = Cert.ReferenceIdeal.RD.bmax2 g01 :=
  level (n := 4) (s := 64) g01 minLike_maxsi rfl rfl rfl _ _ (kp2_ext g01 minLike_maxsi)
theorem bmin3_eq (g01 : IVec Cert.KernelIdeal.S256x256x256 32) :
    Cert.KernelIdeal.KD.bmin3 (Cert.KernelIdeal.KD.tgt0 g01) = Cert.ReferenceIdeal.RD.bmin3 g01 :=
  level (n := 2) (s := 128) g01 minLike_minsi rfl rfl rfl _ _ (kp3_ext g01 minLike_minsi)
theorem bmax3_eq (g01 : IVec Cert.KernelIdeal.S256x256x256 32) :
    Cert.KernelIdeal.KD.bmax3 (Cert.KernelIdeal.KD.tgt0 g01) = Cert.ReferenceIdeal.RD.bmax3 g01 :=
  level (n := 2) (s := 128) g01 minLike_maxsi rfl rfl rfl _ _ (kp3_ext g01 minLike_maxsi)
theorem bmin4_eq (g01 : IVec Cert.KernelIdeal.S256x256x256 32) :
    Cert.KernelIdeal.KD.bmin4 (Cert.KernelIdeal.KD.tgt0 g01) = Cert.ReferenceIdeal.RD.bmin4 g01 :=
  level (n := 1) (s := 256) g01 minLike_minsi rfl rfl rfl _ _ (kp4_ext g01 minLike_minsi)
theorem bmax4_eq (g01 : IVec Cert.KernelIdeal.S256x256x256 32) :
    Cert.KernelIdeal.KD.bmax4 (Cert.KernelIdeal.KD.tgt0 g01) = Cert.ReferenceIdeal.RD.bmax4 g01 :=
  level (n := 1) (s := 256) g01 minLike_maxsi rfl rfl rfl _ _ (kp4_ext g01 minLike_maxsi)

end Final

end Cert.Pool

end
-- ==== Proof.PreDecode.lean ====
import proofs.«405900_j55972013802040_1_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

namespace Cert.PreDecode

open Idealize.ShloMosaic Idealize.ShloMosaic.ValueIdx Cert.Pre_finite_inputs

instance subsingleton_scalar_idx : Subsingleton S_.Idx := ⟨fun a b => funext fun d => d.elim0⟩

theorem ofBits_inf : Ideal.ofBits .f32 0x7F800000#32 = (⊤ : EReal) := by simp [Ideal.ofBits, Ideal.ieee]

theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [ofBits_inf] at h
  unfold Ideal.cmp at h
  induction x using EReal.rec with
  | bot => simp at h
  | coe r => exact ⟨r, rfl⟩
  | top => simp at h

theorem real_of_all {s : Shape} {axes : List (Fin s.rank)} (x : FVec Ideal s .f32)
    (bc : S_.BroadcastsInDim s (![] : Fin 0 → Fin s.rank)) (rd : s.ReducesTo axes S_) (h0 : 0 < S_.numel)
    (h : Host.reduce IntOp.andi
        (cmpf .olt (Host.absf (F := Ideal) x) (broadcastInDim s ![] bc (constant (F := Ideal) S_ .f32 0x7F800000#32)))
        (constantI S_ 1 1#1) rd h0 ix0 = 1#1) :
    ∀ i, ∃ r : ℝ, x i = (r : EReal) := fun i =>
  real_of_abs_lt_inf (x i) (Host.reduce_andi_all _ _ rd h0 ix0 h i)

theorem of_pre_all [Facts]
    (g : IVec S1x256x256x256 32) (x : FVec Ideal S4096x2x16x16x16 .f32)
    (l1 : FVec Ideal S512x3 .f32) (l2 : FVec Ideal S64x3 .f32)
    (l3 : FVec Ideal S8x3 .f32) (l4 : FVec Ideal S1x3 .f32)
    (h : fn (F := Ideal) g x l1 l2 l3 l4 = fun _ => 1#1) :
    (∀ i, ∃ r : ℝ, x i = (r : EReal)) ∧ (∀ i, ∃ r : ℝ, l1 i = (r : EReal)) ∧ (∀ i, ∃ r : ℝ, l2 i = (r : EReal))
      ∧ (∀ i, ∃ r : ℝ, l3 i = (r : EReal)) ∧ (∀ i, ∃ r : ℝ, l4 i = (r : EReal))
      ∧ (∀ i, g i = 1#32 ∨ g i = 4294967295#32) := by
  have e := congrFun h ix0
  dsimp only [fn, fn_part1] at e
  obtain ⟨e4, hg⟩ := IntOp.andi_eq_one.1 e
  obtain ⟨e3, hl4⟩ := IntOp.andi_eq_one.1 e4
  obtain ⟨e2, hl3⟩ := IntOp.andi_eq_one.1 e3
  obtain ⟨e1, hl2⟩ := IntOp.andi_eq_one.1 e2
  obtain ⟨hx, hl1⟩ := IntOp.andi_eq_one.1 e1
  refine ⟨real_of_all x _ _ _ hx, real_of_all l1 _ _ _ hl1, real_of_all l2 _ _ _ hl2, real_of_all l3 _ _ _ hl3,
    real_of_all l4 _ _ _ hl4, fun i => ?_⟩
  have hi := Host.reduce_andi_all _ _ _ _ ix0 hg i
  rcases IntOp.ori_eq_one.1 hi with h1 | h1
  · exact Or.inl (IntOp.cmpi_eq.1 h1)
  · exact Or.inr (IntOp.cmpi_eq.1 h1)

theorem of_pre [Cert.Pre_finite_inputs.Facts]
    (g : IVec Cert.Pre_finite_inputs.S1x256x256x256 32) (x : FVec Ideal Cert.Pre_finite_inputs.S4096x2x16x16x16 .f32)
    (l1 : FVec Ideal Cert.Pre_finite_inputs.S512x3 .f32) (l2 : FVec Ideal Cert.Pre_finite_inputs.S64x3 .f32)
    (l3 : FVec Ideal Cert.Pre_finite_inputs.S8x3 .f32) (l4 : FVec Ideal Cert.Pre_finite_inputs.S1x3 .f32)
    (h : Cert.Pre_finite_inputs.fn (F := Ideal) g x l1 l2 l3 l4 = fun _ => 1#1) :
    (∀ i, ∃ r : ℝ, x i = (r : EReal)) ∧ (∀ i, g i = 1#32 ∨ g i = 4294967295#32) :=
  have a := of_pre_all g x l1 l2 l3 l4 h
  ⟨a.1, a.2.2.2.2.2⟩

end Cert.PreDecode
-- ==== Proof.GtRange.lean ====
import proofs.«405900_j55972013802040_1_alg».proof.Proof.KDefs
import proofs.«405900_j55972013802040_1_alg».proof.Proof.RDefs

namespace Cert.GtRange

open Idealize.ShloMosaic

variable [Cert.KernelIdeal.Facts] [Cert.ReferenceIdeal.Facts]

def sgn (w : BitVec 32) : BitVec 32 := if w = 0 then 0 else if w.msb then -1 else 1

def floorDiv2 (v : BitVec 32) : BitVec 32 :=
  Scalar.select
    (IntOp.andi (IntOp.cmpi .ne (sgn v) (sgn 2#32)) (IntOp.cmpi .ne (IntOp.remsi .host v 2#32) 0#32))
    (IntOp.subi (IntOp.divsi .host v 2#32) 1#32) (IntOp.divsi .host v 2#32)

def cls (w : BitVec 32) : BitVec 32 := floorDiv2 (IntOp.addi w 1#32)

theorem cls_one : cls 1#32 = 1#32 := by decide
theorem cls_neg_one : cls 4294967295#32 = 0#32 := by decide

theorem gt01_entry (g : IVec Cert.KernelIdeal.S1x256x256x256 32) (i : Cert.KernelIdeal.S256x256x256.Idx) :
    ∃ k, Cert.KernelIdeal.KD.gt01 g i = cls (g k) :=
  ⟨Shape.reshapeEquiv Cert.KernelIdeal.Facts₀.shapeCasts_S1x256x256x256_S256x256x256 i, rfl⟩

theorem gt01_range (g : IVec Cert.KernelIdeal.S1x256x256x256 32) (hg : ∀ i, g i = 1#32 ∨ g i = 4294967295#32) :
    ∀ i, Cert.KernelIdeal.KD.gt01 g i = 0#32 ∨ Cert.KernelIdeal.KD.gt01 g i = 1#32 := by
  intro i
  obtain ⟨k, e⟩ := gt01_entry g i
  rw [e]
  rcases hg k with h | h
  · exact Or.inr (h ▸ cls_one)
  · exact Or.inl (h ▸ cls_neg_one)

theorem tgt0_entry (g01 : IVec Cert.KernelIdeal.S256x256x256 32) (i : Cert.KernelIdeal.S4096x4096.Idx) :
    ∃ k, Cert.KernelIdeal.KD.tgt0 g01 i = g01 k :=
  ⟨_, rfl⟩

theorem tgt0_range (g01 : IVec Cert.KernelIdeal.S256x256x256 32) (h : ∀ i, g01 i = 0#32 ∨ g01 i = 1#32) :
    ∀ i, Cert.KernelIdeal.KD.tgt0 g01 i = 0#32 ∨ Cert.KernelIdeal.KD.tgt0 g01 i = 1#32 := by
  intro i
  obtain ⟨k, e⟩ := tgt0_entry g01 i
  rw [e]
  exact h k

theorem gt01_same (g : IVec Cert.KernelIdeal.S1x256x256x256 32) :
    Cert.ReferenceIdeal.RD.gt01 g = Cert.KernelIdeal.KD.gt01 g := rfl

theorem tgt0_same (g01 : IVec Cert.KernelIdeal.S256x256x256 32) :
    Cert.ReferenceIdeal.RD.tgt0 g01 = Cert.KernelIdeal.KD.tgt0 g01 := rfl

end Cert.GtRange
-- ==== Proof.RefLsm.lean ====
import proofs.«405900_j55972013802040_1_alg».proof.Proof.RDefs
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.ReferenceIdeal.RLsm

open Idealize.ShloMosaic Idealize.ShloMosaic.ValueIdx
open Cert.ReferenceIdeal Cert.ReferenceIdeal.Facts₀ Cert.ReferenceIdeal.Facts

variable [Cert.ReferenceIdeal.Facts]

abbrev xr (x : FVec Ideal S4096x2x16x16x16 .f32) : S4096x2x4096.Idx → EReal :=
  shapeCast S4096x2x4096 x shapeCasts_S4096x2x16x16x16_S4096x2x4096

theorem red : S4096x2x16x16x16.Reduces [1] S4096x16x16x16 :=
  ⟨reducesTo_S4096x2x16x16x16_S4096x16x16x16_d1.1, by decide, reducesTo_S4096x2x16x16x16_S4096x16x16x16_d1.2⟩

theorem lift_ix (b : Fin 4096) (p q r : Fin 16) (k : Fin 2) :
    red.lift (ix4 b p q r) k = ix5 b k p q r := by
  funext a
  refine Fin.ext ?_
  match a with
  | ⟨0, _⟩ => rfl
  | ⟨1, _⟩ => rfl
  | ⟨2, _⟩ => rfl
  | ⟨3, _⟩ => rfl
  | ⟨4, _⟩ => rfl

theorem fold_fin2 {α : Type} (f : α → α → α) [Std.Commutative f] [Std.Associative f] (i : α) (g : Fin 2 → α) :
    (Finset.univ : Finset (Fin 2)).fold f i g = f (g 0) (f (g 1) i) := by
  simp only [Fin.univ_succ, Finset.fold_cons, Finset.fold_map, Finset.univ_unique, Finset.fold_singleton]
  rfl

theorem ofBits_neg_inf : Ideal.ofBits .f32 0xFF800000#32 = ⊥ := by simp [Ideal.ofBits, Ideal.ieee]

/-- The larger of a voxel's two logits: the maximum over the classes from minus infinity, once more against minus infinity. -/
def mx (x : FVec Ideal S4096x2x16x16x16 .f32) : FVec Ideal S4096x16x16x16 .f32 :=
  maximumf (broadcastInDim S4096x16x16x16 ![] bcast_S_S4096x16x16x16 (constant S_ .f32 0xFF800000#32))
    (Host.reduce FloatOps.maximumf x (constant S_ .f32 0xFF800000#32) reducesTo_S4096x2x16x16x16_S4096x16x16x16_d1 h_S_)

theorem mx_apply (x : FVec Ideal S4096x2x16x16x16 .f32) (b : Fin 4096) (p q r : Fin 16) :
    mx x (ix4 b p q r) = max (x (ix5 b 0 p q r)) (x (ix5 b 1 p q r)) := by
  unfold mx
  rw [maximumf_apply, broadcastInDim_scalar_apply, constant_apply, ofBits_neg_inf, max_bot_left]
  refine (Host.reduce_eq_fold_single FloatOps.maximumf x _ reducesTo_S4096x2x16x16x16_S4096x16x16x16_d1 red h_S_
    (ix4 b p q r)).trans ((fold_fin2 _ _ _).trans ?_)
  show max (x (red.lift (ix4 b p q r) (0 : Fin 2))) (max (x (red.lift (ix4 b p q r) (1 : Fin 2))) (Ideal.ofBits .f32 0xFF800000#32)) = _
  rw [lift_ix, lift_ix, ofBits_neg_inf, max_bot_right]

/-- A per-voxel array given a unit class axis, and an array with a unit class axis spread over the two classes. -/
def up1 {α : Type} (m : S4096x16x16x16.Idx → α) : S4096x1x16x16x16.Idx → α :=
  broadcastInDim S4096x1x16x16x16 ![0, 2, 3, 4] bcast_S4096x16x16x16_S4096x1x16x16x16_0_2_3_4 m
def up2 {α : Type} (m : S4096x1x16x16x16.Idx → α) : S4096x2x16x16x16.Idx → α :=
  broadcastInDim S4096x2x16x16x16 ![0, 1, 2, 3, 4] bcast_S4096x1x16x16x16_S4096x2x16x16x16_0_1_2_3_4 m

theorem up_apply {α : Type} (m : S4096x16x16x16.Idx → α) (b : Fin 4096) (c : Fin 2) (p q r : Fin 16) :
    up2 (up1 m) (ix5 b c p q r) = m (ix4 b p q r) :=
  (broadcastInDim_apply _ _ _ (ix5 b c p q r) (ix5 b 0 p q r) fun a =>
    match a with | ⟨0, _⟩ => rfl | ⟨1, _⟩ => rfl | ⟨2, _⟩ => rfl | ⟨3, _⟩ => rfl | ⟨4, _⟩ => rfl).trans
  (broadcastInDim_apply _ _ _ (ix5 b 0 p q r) (ix4 b p q r) fun a =>
    match a with | ⟨0, _⟩ => rfl | ⟨1, _⟩ => rfl | ⟨2, _⟩ => rfl | ⟨3, _⟩ => rfl)

def sh (x : FVec Ideal S4096x2x16x16x16 .f32) : FVec Ideal S4096x2x16x16x16 .f32 := subf x (up2 (up1 (mx x)))

theorem sh_apply (x : FVec Ideal S4096x2x16x16x16 .f32) (b : Fin 4096) (c : Fin 2) (p q r : Fin 16) :
    sh x (ix5 b c p q r) = x (ix5 b c p q r) - max (x (ix5 b 0 p q r)) (x (ix5 b 1 p q r)) := by
  unfold sh
  rw [subf_apply, up_apply, mx_apply]

theorem se_apply (y : FVec Ideal S4096x2x16x16x16 .f32) (b : Fin 4096) (p q r : Fin 16) :
    Host.reduceAdd (Host.exp y) (constant S_ .f32 0x00000000#32) reducesTo_S4096x2x16x16x16_S4096x16x16x16_d1 h_S_
        (ix4 b p q r)
      = Ideal.exp (y (ix5 b 0 p q r)) + Ideal.exp (y (ix5 b 1 p q r)) := by
  rw [hostReduceAdd_apply, Ideal.hostReduceAdd_single reducesTo_S4096x2x16x16x16_S4096x16x16x16_d1 red]
  show Ideal.ofBits .f32 0x00000000#32 + ∑ k : Fin 2, Host.exp y (red.lift (ix4 b p q r) k) = _
  rw [Ideal.ofBits_zero_f32, zero_add, Fin.sum_univ_two, lift_ix, lift_ix]
  rfl

theorem lsm_apply (x : FVec Ideal S4096x2x16x16x16 .f32) (b : Fin 4096) (c : Fin 2) (p q r : Fin 16) :
    RD.logSoftmax0 (F := Ideal) x (ix5 b c p q r)
      = (x (ix5 b c p q r) - max (x (ix5 b 0 p q r)) (x (ix5 b 1 p q r)))
          - Ideal.log (Ideal.exp (x (ix5 b 0 p q r) - max (x (ix5 b 0 p q r)) (x (ix5 b 1 p q r)))
                      + Ideal.exp (x (ix5 b 1 p q r) - max (x (ix5 b 0 p q r)) (x (ix5 b 1 p q r)))) := by
  show (subf (sh x) (up2 (Host.log (up1 (Host.reduceAdd (Host.exp (sh x)) (constant S_ .f32 0x00000000#32)
    reducesTo_S4096x2x16x16x16_S4096x16x16x16_d1 h_S_)))) : FVec Ideal S4096x2x16x16x16 .f32) (ix5 b c p q r) = _
  rw [subf_apply, sh_apply, show ∀ m : FVec Ideal S4096x16x16x16 .f32, up2 (Host.log (up1 m)) (ix5 b c p q r) = Ideal.log (m (ix4 b p q r))
    from fun m => up_apply (fun i => Ideal.log (m i)) b c p q r, se_apply, sh_apply, sh_apply]

theorem cast_apply {α : Type} (y : S4096x2x16x16x16.Idx → α) (b : Fin 4096) (c : Fin 2) (j : Fin 4096) :
    shapeCast S4096x2x4096 y shapeCasts_S4096x2x16x16x16_S4096x2x4096 (ix3 b c j)
      = y (ix5 b c ⟨j.val / 256, by have := j.isLt; omega⟩ ⟨j.val / 16 % 16, Nat.mod_lt _ (by decide)⟩
          ⟨j.val % 16, Nat.mod_lt _ (by decide)⟩) :=
  shapeCast_apply y _ _ _ (by
    rw [Shape.rowMajor_val_five, Shape.rowMajor_val_three]
    show (((b.val * 2 + c.val) * 16 + j.val / 256) * 16 + j.val / 16 % 16) * 16 + j.val % 16
      = (b.val * 2 + c.val) * 4096 + j.val
    omega)

theorem logp_apply (x : FVec Ideal S4096x2x16x16x16 .f32) (b : Fin 4096) (c : Fin 2) (j : Fin 4096) :
    (shapeCast S4096x2x4096 (RD.logSoftmax0 (F := Ideal) x) shapeCasts_S4096x2x16x16x16_S4096x2x4096) (ValueIdx.ix3 b c j)
      = (xr x (ValueIdx.ix3 b c j) - max (xr x (ValueIdx.ix3 b 0 j)) (xr x (ValueIdx.ix3 b 1 j)))
          - Ideal.log (Ideal.exp (xr x (ValueIdx.ix3 b 0 j) - max (xr x (ValueIdx.ix3 b 0 j)) (xr x (ValueIdx.ix3 b 1 j)))
                      + Ideal.exp (xr x (ValueIdx.ix3 b 1 j) - max (xr x (ValueIdx.ix3 b 0 j)) (xr x (ValueIdx.ix3 b 1 j)))) := by
  unfold xr
  rw [cast_apply x b c j, cast_apply x b 0 j, cast_apply x b 1 j, cast_apply (RD.logSoftmax0 (F := Ideal) x) b c j]
  exact lsm_apply x b c _ _ _

end Cert.ReferenceIdeal.RLsm

end
-- ==== Proof.RefL0.lean ====
import proofs.«405900_j55972013802040_1_alg».proof.Proof.RDefs
import proofs.«405900_j55972013802040_1_alg».proof.Proof.Spec
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value
import Mathlib.Data.EReal.Operations
import Mathlib.Analysis.SpecialFunctions.Log.Basic

noncomputable section

namespace Cert.ReferenceIdeal.RL0

open Idealize.ShloMosaic Idealize.ShloMosaic.ValueIdx
open Cert.ReferenceIdeal

theorem neg_logp_eq_nll (a b : ℝ) (t : BitVec 32) :
    -((((if t = 1#32 then (b : EReal) else (a : EReal)) - max (a : EReal) (b : EReal)))
        - Ideal.log (Ideal.exp ((a : EReal) - max (a : EReal) (b : EReal)) + Ideal.exp ((b : EReal) - max (a : EReal) (b : EReal))))
      = Cert.Spec.nll (a : EReal) (b : EReal) t := by
  unfold Cert.Spec.nll
  have hmax : max (a : EReal) (b : EReal) = ((max a b : ℝ) : EReal) :=
    (EReal.coe_strictMono.monotone.map_max).symm
  have hpos : ¬ (Real.exp (a - max a b) + Real.exp (b - max a b) ≤ 0) :=
    not_le.mpr (add_pos (Real.exp_pos _) (Real.exp_pos _))
  rw [hmax, ← EReal.coe_sub, ← EReal.coe_sub, Ideal.exp_coe, Ideal.exp_coe, ← EReal.coe_add, Ideal.log_coe, if_neg hpos]
  split <;> rw [← EReal.coe_sub, ← EReal.coe_sub, ← EReal.coe_neg, ← EReal.coe_add, ← EReal.coe_sub] <;> exact congrArg _ (by ring)

theorem ofBits_4096 : Ideal.ofBits .f32 0x45800000#32 = ((4096 : ℝ) : EReal) := by
  simp [Ideal.ofBits, Ideal.ieee, -EReal.coe_mul]; norm_num

theorem foldl_andi_one {ι : Type} (f : ι → BitVec 1) :
    ∀ l : List ι, (∀ n ∈ l, f n = 1#1) → l.foldl (fun r n => IntOp.andi r (f n)) 1#1 = 1#1
  | [], _ => rfl
  | a :: l, hl => by
    rw [List.foldl_cons, hl a List.mem_cons_self]
    exact foldl_andi_one f l fun n hn => hl n (List.mem_cons_of_mem _ hn)

theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  unfold Host.reduce
  rw [hi]
  exact foldl_andi_one (fun n => x (s.rowMajor.symm n)) _ (fun n _ => hx _)

/-- A word that is 0 or 1 is not wrapped, passes the range check, and clamps to the class it names. -/
theorem word01 (w : BitVec 32) (hw : w = 0#32 ∨ w = 1#32) :
    Scalar.select (IntOp.cmpi .slt w 0#32) (IntOp.addi w 2#32) w = w
      ∧ IntOp.andi (IntOp.cmpi .sge w 0#32) (IntOp.cmpi .sle w 1#32) = 1#1
      ∧ min w.toInt.toNat 1 = ((if w = 1#32 then 1 else 0 : Fin 2)).val := by
  rcases hw with rfl | rfl <;> decide

variable [Facts]
open Facts₀ Facts

theorem takeAlong0_of_range (lp : FVec Ideal S4096x2x4096 .f32) (ix : IVec S4096x1x4096 32)
    (hix : ∀ i, ix i = 0#32 ∨ ix i = 1#32) (y : S4096x1x4096.Idx) :
    RD.takeAlong0 lp ix y
      = lp (gather_S4096x2x4096_S4096x1x4096x1_S4096x1x4096_n_1_02_02_1_3_111.operandIdx y
          (shapeCast S4096x1x4096x1 ix shapeCasts_S4096x1x4096_S4096x1x4096x1)) := by
  have hwr : select (cmpi .slt ix (broadcastInDim S4096x1x4096 ![] bcast_S_S4096x1x4096 (constantI S_ 32 0#32)))
      (addi ix (broadcastInDim S4096x1x4096 ![] bcast_S_S4096x1x4096 (constantI S_ 32 2#32))) ix = ix :=
    funext fun i => (word01 (ix i) (hix i)).1
  unfold RD.takeAlong0
  simp only [hwr]
  rw [select_apply, reduce_andi_one _ _ _ _ y rfl, select_one]
  · rfl
  · exact fun i => (word01 _ (hix _)).2.1

theorem gather_operandIdx (i4 : IVec S4096x1x4096x1 32) (b j : Fin 4096) (c : Fin 2)
    (hc : min (i4 (ix4 b 0 j 0)).toInt.toNat 1 = c.val) :
    gather_S4096x2x4096_S4096x1x4096x1_S4096x1x4096_n_1_02_02_1_3_111.operandIdx (ix3 b 0 j) i4 = ix3 b c j := by
  set d := gather_S4096x2x4096_S4096x1x4096x1_S4096x1x4096_n_1_02_02_1_3_111 with hd
  funext a
  refine Fin.ext ?_
  match a with
  | ⟨0, h0⟩ =>
    have hb : (⟨0, h0⟩ : Fin S4096x2x4096.rank) ∈ d.operandBatchingDims := (by decide : (0 : Fin 3) ∈ ([0, 2] : List (Fin 3)))
    show d.start _ i4 ⟨0, h0⟩ + d.batchCoord _ ⟨0, h0⟩ + d.offCoord _ ⟨0, h0⟩ = b.val
    rw [d.start_batching _ _ _ hb, d.offCoord_eq_zero _ _ (fun h => ((d.mem_sKept _).1 h).2 hb)]
    unfold GatherDims.batchCoord
    rw [dif_pos hb, Nat.zero_add, Nat.add_zero]
    rfl
  | ⟨1, h1⟩ =>
    have hnb : (⟨1, h1⟩ : Fin S4096x2x4096.rank) ∉ d.operandBatchingDims := (by decide : (1 : Fin 3) ∉ ([0, 2] : List (Fin 3)))
    have hcol : (⟨1, h1⟩ : Fin S4096x2x4096.rank) ∈ d.collapsedSliceDims := (by decide : (1 : Fin 3) ∈ ([1] : List (Fin 3)))
    have hsm : (⟨1, h1⟩ : Fin S4096x2x4096.rank) ∈ d.startIndexMap := (by decide : (1 : Fin 3) ∈ ([1] : List (Fin 3)))
    show d.start _ i4 ⟨1, h1⟩ + d.batchCoord _ ⟨1, h1⟩ + d.offCoord _ ⟨1, h1⟩ = c.val
    rw [d.batchCoord_eq_zero _ _ hnb, d.offCoord_eq_zero _ _ (fun h => ((d.mem_sKept _).1 h).1 hcol)]
    unfold GatherDims.start
    rw [dif_pos hsm]
    have hsi : d.siIdx (ix3 b 0 j) ⟨List.idxOf (⟨1, h1⟩ : Fin S4096x2x4096.rank) d.startIndexMap, List.idxOf_lt_length_iff.2 hsm⟩
        = ix4 b 0 j 0 := by
      funext k; refine Fin.ext ?_
      match k with
      | ⟨0, _⟩ => rfl
      | ⟨1, _⟩ => rfl
      | ⟨2, _⟩ => rfl
      | ⟨3, _⟩ => rfl
    rw [hsi]
    exact hc
  | ⟨2, h2⟩ =>
    have hb : (⟨2, h2⟩ : Fin S4096x2x4096.rank) ∈ d.operandBatchingDims := (by decide : (2 : Fin 3) ∈ ([0, 2] : List (Fin 3)))
    show d.start _ i4 ⟨2, h2⟩ + d.batchCoord _ ⟨2, h2⟩ + d.offCoord _ ⟨2, h2⟩ = j.val
    rw [d.start_batching _ _ _ hb, d.offCoord_eq_zero _ _ (fun h => ((d.mem_sKept _).1 h).2 hb)]
    unfold GatherDims.batchCoord
    rw [dif_pos hb, Nat.zero_add, Nat.add_zero]
    rfl

theorem bcast_t_apply (t : IVec S4096x4096 32) (b j : Fin 4096) :
    broadcastInDim S4096x1x4096 ![0, 2] bcast_S4096x4096_S4096x1x4096_0_2 t (ix3 b 0 j) = t (ix2 b j) :=
  broadcastInDim_apply _ _ _ _ (ix2 b j) (fun a => match a with | ⟨0, _⟩ => rfl | ⟨1, _⟩ => rfl)

theorem takeAlong0_apply (lp : FVec Ideal S4096x2x4096 .f32) (t : IVec S4096x4096 32)
    (ht : ∀ i, t i = 0#32 ∨ t i = 1#32) (b j : Fin 4096) :
    RD.takeAlong0 lp (broadcastInDim S4096x1x4096 ![0, 2] bcast_S4096x4096_S4096x1x4096_0_2 t) (ix3 b 0 j)
      = lp (ix3 b (if t (ix2 b j) = 1#32 then 1 else 0) j) := by
  rw [takeAlong0_of_range lp (broadcastInDim S4096x1x4096 ![0, 2] bcast_S4096x4096_S4096x1x4096_0_2 t) (fun i => ht _)]
  refine congrArg lp (gather_operandIdx _ b j _ ?_)
  rw [shapeCast_apply _ shapeCasts_S4096x1x4096_S4096x1x4096x1 (ix4 b 0 j 0) (ix3 b 0 j) (by
      rw [Shape.rowMajor_val_three, Shape.rowMajor_val_four]
      show (b.val * 1 + 0) * 4096 + j.val = ((b.val * 1 + 0) * 4096 + j.val) * 1 + 0
      omega),
    bcast_t_apply]
  exact (word01 _ (ht _)).2.2

theorem rowSum_apply (ng : FVec Ideal S4096x4096 .f32) (b : Fin 4096) :
    Host.reduceAdd ng (constant S_ .f32 0x00000000#32) reducesTo_S4096x4096_S4096_d1 h_S_ (ix1 b)
      = ∑ j : Fin 4096, ng (ix2 b j) := by
  rw [hostReduceAdd_apply,
    Ideal.hostReduceAdd_single _ (by decide : S4096x4096.Reduces [1] S4096), constant_apply, Ideal.ofBits_zero_f32, zero_add]
  refine Finset.sum_congr rfl (fun j _ => congrArg ng ?_)
  funext c
  refine Fin.ext ?_
  match c with
  | ⟨0, _⟩ => rfl
  | ⟨1, _⟩ => rfl

theorem totalSum_apply (dv : FVec Ideal S4096 .f32) (i : S_.Idx) :
    Host.reduceAdd dv (constant S_ .f32 0x00000000#32) reducesTo_S4096_S_d0 h_S_ i = ∑ b : Fin 4096, dv (ix1 b) := by
  rw [hostReduceAdd_apply, Ideal.hostReduceAdd_total _ (fun b => b.elim0), constant_apply, Ideal.ofBits_zero_f32, zero_add]
  exact (Equiv.sum_comp (idxEquiv1 (n := 4096)).symm dv).symm

theorem meanSum_apply (ng : FVec Ideal S4096x4096 .f32) (i : S_.Idx) :
    Host.reduceAdd
        (Host.divf (Host.reduceAdd ng (constant S_ .f32 0x00000000#32) reducesTo_S4096x4096_S4096_d1 h_S_)
          (broadcastInDim S4096 ![] bcast_S_S4096 (constant S_ .f32 0x45800000#32)))
        (constant S_ .f32 0x00000000#32) reducesTo_S4096_S_d0 h_S_ i
      = ∑ b : Fin 4096, (∑ j : Fin 4096, ng (ix2 b j)) * (((1 / 4096 : ℝ)) : EReal) := by
  rw [totalSum_apply]
  refine Finset.sum_congr rfl (fun b _ => ?_)
  rw [hostDivf_apply, broadcastInDim_scalar_apply, constant_apply, ofBits_4096, Ideal.div_coe (by norm_num), rowSum_apply]

theorem hostNegf_apply {s : Shape} (a : FVec Ideal s .f32) (i : s.Idx) : Host.negf a i = -(a i) := rfl

theorem squeeze_apply {α : Type} (v : S4096x1x4096.Idx → α) (b j : Fin 4096) :
    shapeCast S4096x4096 v shapeCasts_S4096x1x4096_S4096x4096 (ix2 b j) = v (ix3 b 0 j) :=
  shapeCast_apply v shapeCasts_S4096x1x4096_S4096x4096 (ix2 b j) (ix3 b 0 j) (by
    rw [Shape.rowMajor_val_three, Shape.rowMajor_val_two]
    show (b.val * 1 + 0) * 4096 + j.val = b.val * 4096 + j.val
    omega)

/-- Minus the gathered log-probability at a voxel is the negative log-likelihood there. -/
theorem neg_take_eq_nll (lp X : FVec Ideal S4096x2x4096 .f32) (t : IVec S4096x4096 32)
    (hX : ∀ i, ∃ r : ℝ, X i = (r : EReal)) (ht : ∀ i, t i = 0#32 ∨ t i = 1#32)
    (hlp : ∀ (b : Fin 4096) (c : Fin 2) (j : Fin 4096), lp (ix3 b c j)
      = (X (ix3 b c j) - max (X (ix3 b 0 j)) (X (ix3 b 1 j)))
        - Ideal.log (Ideal.exp (X (ix3 b 0 j) - max (X (ix3 b 0 j)) (X (ix3 b 1 j)))
          + Ideal.exp (X (ix3 b 1 j) - max (X (ix3 b 0 j)) (X (ix3 b 1 j))))) (b j : Fin 4096) :
    -(RD.takeAlong0 lp (broadcastInDim S4096x1x4096 ![0, 2] bcast_S4096x4096_S4096x1x4096_0_2 t) (ix3 b 0 j))
      = Cert.Spec.nll (X (ix3 b 0 j)) (X (ix3 b 1 j)) (t (ix2 b j)) := by
  obtain ⟨a0, e0⟩ := hX (ix3 b 0 j)
  obtain ⟨a1, e1⟩ := hX (ix3 b 1 j)
  have ec : X (ix3 b (if t (ix2 b j) = 1#32 then 1 else 0) j) = if t (ix2 b j) = 1#32 then (a1 : EReal) else (a0 : EReal) := by
    split <;> assumption
  rw [takeAlong0_apply lp t ht b j, hlp, ec, e0, e1]
  exact neg_logp_eq_nll a0 a1 _

theorem loss0_eq (x : FVec Ideal S4096x2x16x16x16 .f32) (t : IVec S4096x4096 32)
    (hx : ∀ i, ∃ r : ℝ, x i = (r : EReal)) (ht : ∀ i, t i = 0#32 ∨ t i = 1#32)
    (hlp : ∀ (b : Fin 4096) (c : Fin 2) (j : Fin 4096),
      (shapeCast S4096x2x4096 (RD.logSoftmax0 (F := Ideal) x) shapeCasts_S4096x2x16x16x16_S4096x2x4096) (ValueIdx.ix3 b c j)
        = ((shapeCast S4096x2x4096 x shapeCasts_S4096x2x16x16x16_S4096x2x4096) (ValueIdx.ix3 b c j)
            - max ((shapeCast S4096x2x4096 x shapeCasts_S4096x2x16x16x16_S4096x2x4096) (ValueIdx.ix3 b 0 j))
                  ((shapeCast S4096x2x4096 x shapeCasts_S4096x2x16x16x16_S4096x2x4096) (ValueIdx.ix3 b 1 j)))
          - Ideal.log (Ideal.exp ((shapeCast S4096x2x4096 x shapeCasts_S4096x2x16x16x16_S4096x2x4096) (ValueIdx.ix3 b 0 j)
                - max ((shapeCast S4096x2x4096 x shapeCasts_S4096x2x16x16x16_S4096x2x4096) (ValueIdx.ix3 b 0 j))
                      ((shapeCast S4096x2x4096 x shapeCasts_S4096x2x16x16x16_S4096x2x4096) (ValueIdx.ix3 b 1 j)))
              + Ideal.exp ((shapeCast S4096x2x4096 x shapeCasts_S4096x2x16x16x16_S4096x2x4096) (ValueIdx.ix3 b 1 j)
                - max ((shapeCast S4096x2x4096 x shapeCasts_S4096x2x16x16x16_S4096x2x4096) (ValueIdx.ix3 b 0 j))
                      ((shapeCast S4096x2x4096 x shapeCasts_S4096x2x16x16x16_S4096x2x4096) (ValueIdx.ix3 b 1 j))))) :
    RD.loss0 (F := Ideal) x t = fun _ => Cert.Spec.loss0 (shapeCast S4096x2x4096 x shapeCasts_S4096x2x16x16x16_S4096x2x4096) t := by
  funext i
  unfold RD.loss0
  dsimp only
  rw [meanSum_apply]
  unfold Cert.Spec.loss0 Cert.Spec.blockMean
  refine Finset.sum_congr rfl (fun b _ => ?_)
  refine congrArg (· * (((1 / 4096 : ℝ)) : EReal)) ?_
  refine Finset.sum_congr rfl (fun j _ => ?_)
  rw [hostNegf_apply, squeeze_apply]
  exact neg_take_eq_nll (shapeCast S4096x2x4096 (RD.logSoftmax0 (F := Ideal) x) shapeCasts_S4096x2x16x16x16_S4096x2x4096)
    (shapeCast S4096x2x4096 x shapeCasts_S4096x2x16x16x16_S4096x2x4096) t (fun _ => hx _) ht hlp b j

end Cert.ReferenceIdeal.RL0

end
-- ==== Proof.Bridge.lean ====
import proofs.«405900_j55972013802040_1_alg».proof.Proof.PreDecode
import proofs.«405900_j55972013802040_1_alg».proof.Proof.GtRange
import proofs.«405900_j55972013802040_1_alg».proof.Proof.RefLsm
import proofs.«405900_j55972013802040_1_alg».proof.Proof.RefL0
import proofs.«405900_j55972013802040_1_alg».proof.Proof.Spec

noncomputable section

namespace Cert.Bridge

open Idealize.ShloMosaic

variable [hK : Cert.KernelIdeal.Facts] [hR : Cert.ReferenceIdeal.Facts] [hP : Cert.Pre_finite_inputs.Facts]

theorem tgt_range (g : IVec Cert.KernelIdeal.S1x256x256x256 32) (hg : ∀ i, g i = 1#32 ∨ g i = 4294967295#32) :
    ∀ i, Cert.KernelIdeal.KD.tgt0 (Cert.KernelIdeal.KD.gt01 g) i = 0#32
      ∨ Cert.KernelIdeal.KD.tgt0 (Cert.KernelIdeal.KD.gt01 g) i = 1#32 :=
  Cert.GtRange.tgt0_range _ (Cert.GtRange.gt01_range g hg)

theorem level0 (g : IVec Cert.KernelIdeal.S1x256x256x256 32) (x : FVec Ideal Cert.KernelIdeal.S4096x2x16x16x16 .f32)
    (hx : ∀ i, ∃ r : ℝ, x i = (r : EReal)) (hg : ∀ i, g i = 1#32 ∨ g i = 4294967295#32) :
    Cert.ReferenceIdeal.RD.loss0 (F := Ideal) x (Cert.ReferenceIdeal.RD.tgt0 (Cert.ReferenceIdeal.RD.gt01 g))
      = fun _ => Cert.Spec.loss0 (Cert.KernelIdeal.KD.logits3 (F := Ideal) x)
          (Cert.KernelIdeal.KD.tgt0 (Cert.KernelIdeal.KD.gt01 g)) := by
  rw [Cert.GtRange.gt01_same, Cert.GtRange.tgt0_same]
  exact Cert.ReferenceIdeal.RL0.loss0_eq x _ hx (tgt_range g hg) (Cert.ReferenceIdeal.RLsm.logp_apply x)

end Cert.Bridge

end
-- ==== Proof.lean ====
import proofs.«405900_j55972013802040_1_alg».proof.Defs
import proofs.«405900_j55972013802040_1_alg».proof.Proof.Gen.Kernel
import proofs.«405900_j55972013802040_1_alg».proof.Proof.Gen.KernelIdeal
import proofs.«405900_j55972013802040_1_alg».proof.Proof.Gen.ReferenceIdeal
import proofs.«405900_j55972013802040_1_alg».proof.Proof.Gen.Pre_finite_inputs
import proofs.«405900_j55972013802040_1_alg».proof.Proof.BFrame
import proofs.«405900_j55972013802040_1_alg».proof.Proof.KRun
import proofs.«405900_j55972013802040_1_alg».proof.Proof.RRun
import proofs.«405900_j55972013802040_1_alg».proof.Proof.RVal
import proofs.«405900_j55972013802040_1_alg».proof.Proof.Pool
import proofs.«405900_j55972013802040_1_alg».proof.Proof.Bridge
import Idealize.ShloMosaic.Adequacy
import Idealize.ShloMosaic.Init

noncomputable section

namespace Cert.Proof

open Idealize.ShloMosaic Idealize.SL.Sem

-- Level 0 meets the reference in the specification; a coarser level's term depends on the volume only through each
-- block's least and greatest class word, and the pooled and the directly cut extremes are equal words.
theorem val_eq (g : IVec Cert.KernelIdeal.S1x256x256x256 32) (x : FVec Ideal Cert.KernelIdeal.S4096x2x16x16x16 .f32)
    (l1 : FVec Ideal Cert.KernelIdeal.S512x3 .f32) (l2 : FVec Ideal Cert.KernelIdeal.S64x3 .f32)
    (l3 : FVec Ideal Cert.KernelIdeal.S8x3 .f32) (l4 : FVec Ideal Cert.KernelIdeal.S1x3 .f32)
    (hx : ∀ i, ∃ r : ℝ, x i = (r : EReal)) (hg : ∀ i, g i = 1#32 ∨ g i = 4294967295#32) :
    Cert.KernelIdeal.KRun.val g x l1 l2 l3 l4 = Cert.ReferenceIdeal.RV.res (F := Ideal) g x l1 l2 l3 l4 := by
  unfold Cert.KernelIdeal.KRun.val Cert.KernelIdeal.KT.res Cert.ReferenceIdeal.RV.res
  dsimp only
  rw [Cert.Bridge.level0 g x hx hg, Cert.GtRange.gt01_same,
    ← Cert.Pool.bmin1_eq, ← Cert.Pool.bmax1_eq, ← Cert.Pool.bmin2_eq, ← Cert.Pool.bmax2_eq,
    ← Cert.Pool.bmin3_eq, ← Cert.Pool.bmax3_eq, ← Cert.Pool.bmin4_eq, ← Cert.Pool.bmax4_eq]
  rfl

theorem frame_k : Cert.frame_Kernel := fun m ρ _ => Cert.Kernel.HF.frame (F := Bits) m ρ
theorem frame_ki : Cert.frame_KernelIdeal := fun m ρ _ => Cert.KernelIdeal.HF.frame (F := Ideal) m ρ
theorem frame_ri : Cert.frame_ReferenceIdeal := fun m ρ _ => Cert.ReferenceIdeal.HR.frame_ref (F := Ideal) m ρ

-- Both programs run, each result buffer ends at its result function of the arguments, and these are equal.
theorem algebraic : Cert.algebraic_KernelIdeal_ReferenceIdeal := by
  intro m ρ m' ρ' hpre hagree
  refine ⟨_, Cert.KernelIdeal.KRun.run m ρ, ?_⟩
  refine (θ_run Cert.ReferenceIdeal.defs _ _).mono (fun r h c => ?_) (Cert.ReferenceIdeal.HR.run_main (F := Ideal) m' ρ')
  obtain ⟨h0, h1, h2, h3, h4, h5⟩ := Cert.ReferenceIdeal.HR.allOps_kept (F := Ideal) (StableHlo.launchContents m' c)
  obtain ⟨a0, a1, a2, a3, a4, a5⟩ := hagree c
  obtain ⟨hx, hg⟩ := Cert.PreDecode.of_pre _ _ _ _ _ _ (hpre c)
  refine ⟨?_, (h c _).trans h0, (h c _).trans h1, (h c _).trans h2, (h c _).trans h3, (h c _).trans h4, (h c _).trans h5⟩
  refine ((h c _).trans (Cert.ReferenceIdeal.RV.eval (F := Ideal) _)).trans ?_
  rw [val_eq _ _ _ _ _ _ hx hg]
  exact congr (congr (congr (congr (congr (congrArg _ a0) a1) a2) a3) a4) a5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
